-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S8192x3072 : Shape := ⟨2, ![8192, 3072]⟩
abbrev S512x1024 : Shape := ⟨2, ![512, 1024]⟩
abbrev S512x3072 : Shape := ⟨2, ![512, 3072]⟩
abbrev S2048x128 : Shape := ⟨2, ![2048, 128]⟩
abbrev S512x128 : Shape := ⟨2, ![512, 128]⟩
abbrev S1024x128 : Shape := ⟨2, ![1024, 128]⟩
abbrev S2048x1024 : Shape := ⟨2, ![2048, 1024]⟩
abbrev S2x2048x1 : Shape := ⟨3, ![2, 2048, 1]⟩
abbrev S2x2048x64 : Shape := ⟨3, ![2, 2048, 64]⟩
abbrev S2048x64 : Shape := ⟨2, ![2048, 64]⟩
abbrev S512x64 : Shape := ⟨2, ![512, 64]⟩
abbrev S2048x512 : Shape := ⟨2, ![2048, 512]⟩
abbrev S1x2048x1 : Shape := ⟨3, ![1, 2048, 1]⟩
abbrev S2048x1 : Shape := ⟨2, ![2048, 1]⟩
abbrev S2048 : Shape := ⟨1, ![2048]⟩
abbrev S1x2048x64 : Shape := ⟨3, ![1, 2048, 64]⟩

abbrev nBuf : Space → Nat
  | .hbm => 11
  | .vmem => 20
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S3072x1024, .bf16⟩
  | .hbm, ⟨6, _⟩ => ⟨S1024x1024, .bf16⟩
  | .hbm, ⟨7, _⟩ => ⟨S1x1024, .f32⟩
  | .hbm, ⟨8, _⟩ => ⟨S8192x3072, .bf16⟩
  | .hbm, ⟨9, _⟩ => ⟨S8192x1024, .f32⟩
  | .hbm, ⟨10, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .bf16⟩
  | .local _ .vmem, ⟨3, _⟩ => ⟨S512x3072, .bf16⟩
  | .local _ .vmem, ⟨4, _⟩ => ⟨S512x3072, .bf16⟩
  | .local _ .vmem, ⟨5, _⟩ => ⟨S2048x128, .bf16⟩
  | .local _ .vmem, ⟨6, _⟩ => ⟨S2048x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S1024x128, .bf16⟩
  | .local _ .vmem, ⟨12, _⟩ => ⟨S1024x128, .bf16⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | .local _ .vmem, ⟨16, _⟩ => ⟨S2x2048x1, .f32⟩
  | .local _ .vmem, ⟨17, _⟩ => ⟨S2x2048x1, .f32⟩
  | .local _ .vmem, ⟨18, _⟩ => ⟨S2x2048x64, .f32⟩
  | .local _ .vmem, ⟨19, _⟩ => ⟨S2048x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 4], ![false, false, false]⟩

def k1_cond4 (i : grid1.Coords) : BitVec 1 :=
  let arg1 : BitVec 32 := BitVec.ofNat 32 (i 1).val
  let c7_i32 : BitVec 32 := 7#32
  let v93 : BitVec 1 := Scalar.cmpi .eq arg1 c7_i32
  let arg2 : BitVec 32 := BitVec.ofNat 32 (i 2).val
  let c3_i32_54 : BitVec 32 := 3#32
  let v94 : BitVec 1 := Scalar.cmpi .eq arg2 c3_i32_54
  let v95 : BitVec 1 := Scalar.andi v93 v94
  let v96 : BitVec 32 := Scalar.extui v95
  let c0_i32_55 : BitVec 32 := 0#32
  let v97 : BitVec 1 := Scalar.cmpi .ne v96 c0_i32_55
  v97

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1024x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S2048x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2x2048x1_S2x2048x1_0_0_0 : ∀ a, (![0, 0, 0] : Fin 3 → Nat) a + S2x2048x1.size a ≤ S2x2048x1.size a
  h_S2x2048x1 : 0 < S2x2048x1.numel
  shapeCasts_S2x2048x1_S2x2048x1 : S2x2048x1.ShapeCasts S2x2048x1
  inb_S2x2048x64_S2x2048x64_0_0_0 : ∀ a, (![0, 0, 0] : Fin 3 → Nat) a + S2x2048x64.size a ≤ S2x2048x64.size a
  h_S2x2048x64 : 0 < S2x2048x64.numel
  shapeCasts_S2x2048x64_S2x2048x64 : S2x2048x64.ShapeCasts S2x2048x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  slices_S2048x128_o0_0_S2048x64 : S2048x128.Slices ![0, 0] S2048x64
  slices_S512x128_o0_0_S512x64 : S512x128.Slices ![0, 0] S512x64
  inb_S2x2048x1_S1x2048x1_0_0_0 : ∀ a, (![0, 0, 0] : Fin 3 → Nat) a + S1x2048x1.size a ≤ S2x2048x1.size a
  h_S1x2048x1 : 0 < S1x2048x1.numel
  shapeCasts_S1x2048x1_S2048x1 : S1x2048x1.ShapeCasts S2048x1
  reduces_S2048x512_S2048 : S2048x512.Reduces [1] S2048
  shapeCasts_S2048_S2048x1 : S2048.ShapeCasts S2048x1
  broadcasts_S2048x1_S2048x512 : S2048x1.Broadcasts S2048x512
  shapeCasts_S2048x1_S1x2048x1 : S2048x1.ShapeCasts S1x2048x1
  inb_S2x2048x64_S1x2048x64_0_0_0 : ∀ a, (![0, 0, 0] : Fin 3 → Nat) a + S1x2048x64.size a ≤ S2x2048x64.size a
  h_S1x2048x64 : 0 < S1x2048x64.numel
  shapeCasts_S1x2048x64_S2048x64 : S1x2048x64.ShapeCasts S2048x64
  broadcasts_S2048x1_S2048x64 : S2048x1.Broadcasts S2048x64
  shapeCasts_S2048x64_S1x2048x64 : S2048x64.ShapeCasts S1x2048x64
  slices_S2048x128_o0_64_S2048x64 : S2048x128.Slices ![0, 64] S2048x64
  slices_S512x128_o0_64_S512x64 : S512x128.Slices ![0, 64] S512x64
  inb_S2x2048x1_S1x2048x1_1_0_0 : ∀ a, (![1, 0, 0] : Fin 3 → Nat) a + S1x2048x1.size a ≤ S2x2048x1.size a
  inb_S2x2048x64_S1x2048x64_1_0_0 : ∀ a, (![1, 0, 0] : Fin 3 → Nat) a + S1x2048x64.size a ≤ S2x2048x64.size a
  concatenates_S2048x64_S2048x64_S2048x128_d1 : Shape.Concatenates [S2048x64, S2048x64] S2048x128 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S8192x1024_S4x2048x1024 : S8192x1024.ShapeCasts S4x2048x1024
  dot_S512x1024_S3072x1024_S512x3072_1_1_0_0_n_n_wf : DotDims.WF S512x1024 S3072x1024 S512x3072 [1] [1] [0] [0] [] []
  dot_S2048x64_S512x64_S2048x512_1_1_0_0_n_n_wf : DotDims.WF S2048x64 S512x64 S2048x512 [1] [1] [0] [0] [] []
  dot_S2048x512_S512x64_S2048x64_1_0_0_1_n_n_wf : DotDims.WF S2048x512 S512x64 S2048x64 [1] [0] [0] [1] [] []
  dot_S2048x128_S1024x128_S2048x1024_1_1_0_0_n_n_wf : DotDims.WF S2048x128 S1024x128 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S8192x3072.size a
  hwx0_2 : ∀ i : grid0.Coords, EltTy.bits .bf16 = 32 ∨ (Rect.block (s := S8192x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x3072.size a
  hwx1_0 : ∀ i : grid1.Coords, EltTy.bits .bf16 = 32 ∨ (Rect.block (s := S8192x3072) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S8192x3072.size a
  hwx1_1 : ∀ i : grid1.Coords, EltTy.bits .bf16 = 32 ∨ (Rect.block (s := S8192x3072) S512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x3072.size a
  hwx1_2 : ∀ i : grid1.Coords, EltTy.bits .bf16 = 32 ∨ (Rect.block (s := S8192x3072) S512x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S1024x1024.size a
  hwx1_3 : ∀ i : grid1.Coords, EltTy.bits .bf16 = 32 ∨ (Rect.block (s := S1024x1024) S1024x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x1024.size a ≤ S8192x1024.size a
  hwx1_5 : ∀ i : grid1.Coords, EltTy.bits .f32 = 32 ∨ (Rect.block (s := S8192x1024) S2048x1024.size (cc1_transform_5 i) (hinb1_5 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x128_S1024x128_S2048x1024_1_1_0_0_n_n : DotDims S2048x128 S1024x128 S2048x1024 where
  lhsContracting := [1]
  rhsContracting := [1]
  lhsNonContracting := [0]
  rhsNonContracting := [0]
  lhsBatch := []
  rhsBatch := []
  wf := dot_S2048x128_S1024x128_S2048x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2048x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond4 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S1x1x1024 : Shape := ⟨3, ![1, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x1024, .f32⟩
  | .hbm, ⟨6, _⟩ => ⟨S4x2048x1024, .f32⟩
  | .hbm, ⟨7, _⟩ => ⟨S4x2048x1024, .f32⟩
  | .hbm, ⟨8, _⟩ => ⟨S4x2048x16x64, .f32⟩
  | .hbm, ⟨9, _⟩ => ⟨S4x16x2048x64, .f32⟩
  | .hbm, ⟨10, _⟩ => ⟨S4x2048x16x64, .f32⟩
  | .hbm, ⟨11, _⟩ => ⟨S4x16x2048x64, .f32⟩
  | .hbm, ⟨12, _⟩ => ⟨S4x2048x16x64, .f32⟩
  | .hbm, ⟨13, _⟩ => ⟨S4x16x2048x64, .f32⟩
  | .hbm, ⟨14, _⟩ => ⟨S4x16x2048x2048, .f32⟩
  | .hbm, ⟨15, _⟩ => ⟨S_, .f32⟩
  | .hbm, ⟨16, _⟩ => ⟨S4x16x2048x2048, .f32⟩
  | .hbm, ⟨17, _⟩ => ⟨S4x16x2048x2048, .f32⟩
  | .hbm, ⟨18, _⟩ => ⟨S_, .f32⟩
  | .hbm, ⟨19, _⟩ => ⟨S4x16x2048, .f32⟩
  | .hbm, ⟨20, _⟩ => ⟨S_, .f32⟩
  | .hbm, ⟨21, _⟩ => ⟨S4x16x2048, .f32⟩
  | .hbm, ⟨22, _⟩ => ⟨S4x16x2048, .f32⟩
  | .hbm, ⟨23, _⟩ => ⟨S4x16x2048x1, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .f32⟩
  | .hbm, ⟨27, _⟩ => ⟨S_, .f32⟩
  | .hbm, ⟨28, _⟩ => ⟨S4x16x2048, .f32⟩
  | .hbm, ⟨29, _⟩ => ⟨S4x16x2048x1, .f32⟩
  | .hbm, ⟨30, _⟩ => ⟨S4x16x2048x2048, .f32⟩
  | .hbm, ⟨31, _⟩ => ⟨S4x16x2048x2048, .f32⟩
  | .hbm, ⟨32, _⟩ => ⟨S4x16x2048x64, .f32⟩
  | .hbm, ⟨33, _⟩ => ⟨S4x2048x16x64, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]

class Facts₀ : Prop where
  slices_S4x2048x3072_S4x2048x1024_0_0_0 : S4x2048x3072.Slices ![0, 0, 0] S4x2048x1024
  slices_S4x2048x3072_S4x2048x1024_0_0_1024 : S4x2048x3072.Slices ![0, 0, 1024] S4x2048x1024
  slices_S4x2048x3072_S4x2048x1024_0_0_2048 : S4x2048x3072.Slices ![0, 0, 2048] S4x2048x1024
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.Spec.lean ====
import Idealize.ShloMosaic.PureOps.Ideal
import Idealize.ShloMosaic.Lib.ValueIdx
import Mathlib.Order.CompleteLattice.Finset
import Mathlib.Algebra.BigOperators.Group.Finset.Basic

open scoped BigOperators

noncomputable section

namespace Cert.Spec

open Idealize.ShloMosaic Idealize.ShloMosaic.ValueIdx

def scale : EReal := Ideal.ofBits .f32 0x3D000000#32

abbrev QKV : Type := Fin 4 → Fin 2048 → Fin 3072 → EReal

def colQ (h : Fin 16) (d : Fin 64) : Fin 3072 := ⟨h.val * 64 + d.val, by omega⟩

def colK (h : Fin 16) (d : Fin 64) : Fin 3072 := ⟨1024 + (h.val * 64 + d.val), by omega⟩

def colV (h : Fin 16) (d : Fin 64) : Fin 3072 := ⟨2048 + (h.val * 64 + d.val), by omega⟩

def proj (x : Fin 4 → Fin 2048 → Fin 1024 → EReal) (w : Fin 3072 → Fin 1024 → EReal) : QKV :=
  fun b n e => ∑ d : Fin 1024, x b n d * w e d

def score (Q : QKV) (b : Fin 4) (h : Fin 16) (n k : Fin 2048) : EReal :=
  (∑ d : Fin 64, Q b n (colQ h d) * Q b k (colK h d)) * scale

def rowMax (Q : QKV) (b : Fin 4) (h : Fin 16) (n : Fin 2048) : EReal :=
  Finset.univ.sup fun k : Fin 2048 => score Q b h n k

def pexp (Q : QKV) (b : Fin 4) (h : Fin 16) (n k : Fin 2048) : EReal :=
  Ideal.exp (score Q b h n k - rowMax Q b h n)

def denom (Q : QKV) (b : Fin 4) (h : Fin 16) (n : Fin 2048) : EReal :=
  ∑ k : Fin 2048, pexp Q b h n k

def attn (Q : QKV) (b : Fin 4) (h : Fin 16) (n : Fin 2048) (d : Fin 64) : EReal :=
  ∑ k : Fin 2048, Ideal.div (pexp Q b h n k) (denom Q b h n) * Q b k (colV h d)

def headOf (c : Fin 1024) : Fin 16 := ⟨c.val / 64, by omega⟩
def dimOf (c : Fin 1024) : Fin 64 := ⟨c.val % 64, Nat.mod_lt _ (by decide)⟩

def attnOut (Q : QKV) (wo : Fin 1024 → Fin 1024 → EReal) (bo : Fin 1024 → EReal) :
    Fin 4 → Fin 2048 → Fin 1024 → EReal :=
  fun b n e => (∑ c : Fin 1024, attn Q b (headOf c) n (dimOf c) * wo e c) + bo e

def ref (x : Fin 4 → Fin 2048 → Fin 1024 → EReal) (w : Fin 3072 → Fin 1024 → EReal)
    (wo : Fin 1024 → Fin 1024 → EReal) (bo : Fin 1024 → EReal) : Fin 4 → Fin 2048 → Fin 1024 → EReal :=
  attnOut (proj x w) wo bo

def x3 (x : (⟨3, ![4, 2048, 1024]⟩ : Shape).Idx → EReal) : Fin 4 → Fin 2048 → Fin 1024 → EReal :=
  fun b n d => x (ix3 b n d)
def mW (w : (⟨2, ![3072, 1024]⟩ : Shape).Idx → EReal) : Fin 3072 → Fin 1024 → EReal := fun e d => w (ix2 e d)
def mO (w : (⟨2, ![1024, 1024]⟩ : Shape).Idx → EReal) : Fin 1024 → Fin 1024 → EReal := fun e c => w (ix2 e c)
def v1 (b : (⟨1, ![1024]⟩ : Shape).Idx → EReal) : Fin 1024 → EReal := fun e => b (ix1 e)

def G (x : (⟨3, ![4, 2048, 1024]⟩ : Shape).Idx → EReal) (w : (⟨2, ![3072, 1024]⟩ : Shape).Idx → EReal)
    (wo : (⟨2, ![1024, 1024]⟩ : Shape).Idx → EReal) (bo : (⟨1, ![1024]⟩ : Shape).Idx → EReal) :
    (⟨3, ![4, 2048, 1024]⟩ : Shape).Idx → EReal :=
  fun i => ref (x3 x) (mW w) (mO wo) (v1 bo) (i 0) (i 1) (i 2)

def row (b : Fin 4) (n : Fin 2048) : Fin 8192 := ⟨b.val * 2048 + n.val, by omega⟩
def batchOf (r : Fin 8192) : Fin 4 := ⟨r.val / 2048, by omega⟩
def posOf (r : Fin 8192) : Fin 2048 := ⟨r.val % 2048, Nat.mod_lt _ (by decide)⟩

def proj2 (x2 : (⟨2, ![8192, 1024]⟩ : Shape).Idx → EReal) (w : (⟨2, ![3072, 1024]⟩ : Shape).Idx → EReal) :
    (⟨2, ![8192, 3072]⟩ : Shape).Idx → EReal :=
  fun i => ∑ d : Fin 1024, x2 (ix2 (i 0) d) * w (ix2 (i 1) d)

def qkvOf (Q2 : (⟨2, ![8192, 3072]⟩ : Shape).Idx → EReal) : QKV := fun b n e => Q2 (ix2 (row b n) e)

def attnOut2 (Q2 : (⟨2, ![8192, 3072]⟩ : Shape).Idx → EReal) (wo : (⟨2, ![1024, 1024]⟩ : Shape).Idx → EReal)
    (bo : (⟨2, ![1, 1024]⟩ : Shape).Idx → EReal) : (⟨2, ![8192, 1024]⟩ : Shape).Idx → EReal :=
  fun i => attnOut (qkvOf Q2) (mO wo) (fun e => bo (ix2 0 e)) (batchOf (i 0)) (posOf (i 0)) (i 1)

structure OState where
  m : EReal
  l : EReal
  a : Fin 64 → EReal

def OState.init : OState := ⟨⊥, 0, fun _ => 0⟩

def OState.step (S : OState) (s : Fin 512 → EReal) (v : Fin 512 → Fin 64 → EReal) : OState :=
  let m' := max S.m (Finset.univ.sup s)
  { m := m'
    l := Ideal.exp (S.m - m') * S.l + ∑ k : Fin 512, Ideal.exp (s k - m')
    a := fun d => Ideal.exp (S.m - m') * S.a d + ∑ k : Fin 512, Ideal.exp (s k - m') * v k d }

def onl (s : ℕ → Fin 512 → EReal) (v : ℕ → Fin 512 → Fin 64 → EReal) : ℕ → OState
  | 0 => OState.init
  | j + 1 => (onl s v j).step (s j) (v j)

def tileOf (k : Fin 2048) : ℕ := k.val / 512
def placeOf (k : Fin 2048) : Fin 512 := ⟨k.val % 512, Nat.mod_lt _ (by decide)⟩

end Cert.Spec

end
-- ==== Proof.Ref.RefValue.lean ====
import proofs.«413035_j60224031424684_3_alg».proof.Defs
import proofs.«413035_j60224031424684_3_alg».proof.Proof.Gen.ReferenceIdeal
import proofs.«413035_j60224031424684_3_alg».proof.Proof.Gen.ReferenceIdeal.Run
import proofs.«413035_j60224031424684_3_alg».proof.Proof.Gen.ReferenceIdeal.Read
import proofs.«413035_j60224031424684_3_alg».proof.Proof.Spec
import Idealize.ShloMosaic.Lib.ValueIdx
import Idealize.ShloMosaic.Lib.Pipeline.Value
import Idealize.ShloMosaic.PureOps.Ideal.Laws
import Idealize.ShloMosaic.PureOps.Reduce

open scoped BigOperators

noncomputable section

namespace Cert.ReferenceIdeal.RefValue

open Cert.ReferenceIdeal Cert.ReferenceIdeal.Read Idealize.ShloMosaic Idealize.ShloMosaic.ValueIdx Cert.Spec

variable (x0 : (⟨S4x2048x1024, .f32⟩ : BufTy).Contents (Elt Ideal)) (x1 : (⟨S3072x1024, .f32⟩ : BufTy).Contents (Elt Ideal))

abbrev Q : QKV := proj (x3 x0) (mW x1)

theorem v0_at (b : Fin 4) (n : Fin 2048) (e : Fin 3072) :
    val_main_v0 (F := Ideal) x0 x1 (ix3 b n e) = Q x0 x1 b n e := by
  rw [val_main_v0_apply]
  have el : ∀ k : Fin 1024, lidx_main_v0 (ix3 b n e) k = ix3 b n k := fun k =>
    funext fun a => by match a with | ⟨0, _⟩ => rfl | ⟨1, _⟩ => rfl | ⟨2, _⟩ => rfl
  have er : ∀ k : Fin 1024, ridx_main_v0 (ix3 b n e) k = ix2 e k := fun k =>
    funext fun a => by match a with | ⟨0, _⟩ => rfl | ⟨1, _⟩ => rfl
  simp only [el, er]
  rfl

theorem v1_at (b : Fin 4) (n : Fin 2048) (c : Fin 1024) :
    val_main_v1 (F := Ideal) x0 x1 (ix3 b n c) = Q x0 x1 b n ⟨c.val, by omega⟩ := by
  rw [val_main_v1_apply, ← v0_at]
  exact congrArg _ (funext fun a => by match a with | ⟨0, _⟩ => rfl | ⟨1, _⟩ => rfl | ⟨2, _⟩ => rfl)

theorem v2_at (b : Fin 4) (n : Fin 2048) (c : Fin 1024) :
    val_main_v2 (F := Ideal) x0 x1 (ix3 b n c) = Q x0 x1 b n ⟨1024 + c.val, by omega⟩ := by
  rw [val_main_v2_apply, ← v0_at]
  exact congrArg _ (funext fun a => by match a with | ⟨0, _⟩ => rfl | ⟨1, _⟩ => rfl | ⟨2, _⟩ => rfl)

theorem v3_at (b : Fin 4) (n : Fin 2048) (c : Fin 1024) :
    val_main_v3 (F := Ideal) x0 x1 (ix3 b n c) = Q x0 x1 b n ⟨2048 + c.val, by omega⟩ := by
  rw [val_main_v3_apply, ← v0_at]
  exact congrArg _ (funext fun a => by match a with | ⟨0, _⟩ => rfl | ⟨1, _⟩ => rfl | ⟨2, _⟩ => rfl)

theorem split_idx (b : Fin 4) (n : Fin 2048) (h : Fin 16) (d : Fin 64) :
    idx_main_v4 (ix4 b n h d) = ix3 b n (⟨h.val * 64 + d.val, by omega⟩ : Fin 1024) := by
  funext a; apply Fin.ext
  match a with
  | ⟨0, _⟩ => show (((b.val * 2048 + n.val) * 16 + h.val) * 64 + d.val) / 2097152 = b.val; omega
  | ⟨1, _⟩ => show (((b.val * 2048 + n.val) * 16 + h.val) * 64 + d.val) / 1024 % 2048 = n.val; omega
  | ⟨2, _⟩ => show (((b.val * 2048 + n.val) * 16 + h.val) * 64 + d.val) % 1024 = h.val * 64 + d.val; omega

theorem swap_idx (b : Fin 4) (h : Fin 16) (n : Fin 2048) (d : Fin 64) :
    idx_main_v5 (ix4 b h n d) = ix4 b n h d := by
  funext a; match a with | ⟨0, _⟩ => rfl | ⟨1, _⟩ => rfl | ⟨2, _⟩ => rfl | ⟨3, _⟩ => rfl

theorem v5_at (b : Fin 4) (h : Fin 16) (n : Fin 2048) (d : Fin 64) :
    val_main_v5 (F := Ideal) x0 x1 (ix4 b h n d) = Q x0 x1 b n (colQ h d) := by
  rw [val_main_v5_apply, swap_idx, val_main_v4_apply, split_idx, v1_at]
  rfl

theorem v7_at (b : Fin 4) (h : Fin 16) (n : Fin 2048) (d : Fin 64) :
    val_main_v7 (F := Ideal) x0 x1 (ix4 b h n d) = Q x0 x1 b n (colK h d) := by
  rw [val_main_v7_apply, show idx_main_v7 (ix4 b h n d) = ix4 b n h d from swap_idx b h n d, val_main_v6_apply,
    show idx_main_v6 (ix4 b n h d) = _ from split_idx b n h d, v2_at]
  rfl

theorem v9_at (b : Fin 4) (h : Fin 16) (n : Fin 2048) (d : Fin 64) :
    val_main_v9 (F := Ideal) x0 x1 (ix4 b h n d) = Q x0 x1 b n (colV h d) := by
  rw [val_main_v9_apply, show idx_main_v9 (ix4 b h n d) = ix4 b n h d from swap_idx b h n d, val_main_v8_apply,
    show idx_main_v8 (ix4 b n h d) = _ from split_idx b n h d, v3_at]
  rfl

theorem v10_at (b : Fin 4) (h : Fin 16) (n k : Fin 2048) :
    val_main_v10 (F := Ideal) x0 x1 (ix4 b h n k) = ∑ d : Fin 64, Q x0 x1 b n (colQ h d) * Q x0 x1 b k (colK h d) := by
  rw [val_main_v10_apply]
  refine Finset.sum_congr rfl fun d _ => ?_
  rw [show lidx_main_v10 (ix4 b h n k) d = ix4 b h n d from
      funext fun a => by match a with | ⟨0, _⟩ => rfl | ⟨1, _⟩ => rfl | ⟨2, _⟩ => rfl | ⟨3, _⟩ => rfl,
    show ridx_main_v10 (ix4 b h n k) d = ix4 b h k d from
      funext fun a => by match a with | ⟨0, _⟩ => rfl | ⟨1, _⟩ => rfl | ⟨2, _⟩ => rfl | ⟨3, _⟩ => rfl,
    v5_at, v7_at]

theorem v12_at (b : Fin 4) (h : Fin 16) (n k : Fin 2048) :
    val_main_v12 (F := Ideal) x0 x1 (ix4 b h n k) = score (Q x0 x1) b h n k := by
  rw [val_main_v12_apply, v10_at, val_main_v11_apply, val_main_cst_apply]
  rfl

theorem dropsKeys : S4x16x2048x2048.Reduces [3] S4x16x2048 := by decide

theorem lift_at (b : Fin 4) (h : Fin 16) (n : Fin 2048) (k : Fin (S4x16x2048x2048.size 3)) :
    dropsKeys.lift (ix3 b h n) k = ix4 b h n (⟨k.val, k.isLt⟩ : Fin 2048) := by
  funext c; apply Fin.ext
  match c with | ⟨0, _⟩ => rfl | ⟨1, _⟩ => rfl | ⟨2, _⟩ => rfl | ⟨3, _⟩ => rfl

theorem negInf_eq_bot : Ideal.ofBits .f32 0xFF800000#32 = (⊥ : EReal) := by
  simp [Ideal.ofBits, Ideal.ieee]

theorem fold_max_eq_sup (f : Fin 2048 → EReal) :
    (Finset.univ : Finset (Fin 2048)).fold max (⊥ : EReal) f = Finset.univ.sup f := rfl

theorem v13_at (b : Fin 4) (h : Fin 16) (n : Fin 2048) :
    val_main_v13 (F := Ideal) x0 x1 (ix3 b h n) = rowMax (Q x0 x1) b h n := by
  unfold val_main_v13
  rw [Host.reduce_eq_fold_single FloatOps.maximumf _ _ _ dropsKeys _ (ix3 b h n)]
  have hf : (val_main_v12 (F := Ideal) x0 x1 ∘ dropsKeys.lift (ix3 b h n)) = fun k : Fin 2048 => score (Q x0 x1) b h n k :=
    funext fun k => by
      show val_main_v12 (F := Ideal) x0 x1 (dropsKeys.lift (ix3 b h n) k) = _
      rw [lift_at, v12_at]
      rfl
  rw [hf, val_main_cst_0_apply]
  exact (congrArg (fun z => (Finset.univ : Finset (Fin 2048)).fold max z fun k => score (Q x0 x1) b h n k) negInf_eq_bot).trans
    (fold_max_eq_sup _)

theorem v15_at (b : Fin 4) (h : Fin 16) (n : Fin 2048) :
    val_main_v15 (F := Ideal) x0 x1 (ix3 b h n) = rowMax (Q x0 x1) b h n := by
  rw [val_main_v15_apply, v13_at, val_main_v14_apply, val_main_cst_1_apply]
  show max (Ideal.ofBits .f32 0xFF800000#32) (rowMax (Q x0 x1) b h n) = _
  rw [negInf_eq_bot]
  exact max_bot_left _

theorem v17_at (b : Fin 4) (h : Fin 16) (n k : Fin 2048) :
    val_main_v17 (F := Ideal) x0 x1 (ix4 b h n k) = rowMax (Q x0 x1) b h n := by
  rw [val_main_v17_apply, val_main_v16_apply, ← v15_at]
  exact congrArg _ (funext fun a => by match a with | ⟨0, _⟩ => rfl | ⟨1, _⟩ => rfl | ⟨2, _⟩ => rfl)

theorem v19_at (b : Fin 4) (h : Fin 16) (n k : Fin 2048) :
    val_main_v19 (F := Ideal) x0 x1 (ix4 b h n k) = pexp (Q x0 x1) b h n k := by
  rw [val_main_v19_apply, val_main_v18_apply, v12_at, v17_at]
  rfl

theorem v20_at (b : Fin 4) (h : Fin 16) (n : Fin 2048) :
    val_main_v20 (F := Ideal) x0 x1 (ix3 b h n) = denom (Q x0 x1) b h n := by
  rw [val_main_v20_apply, val_main_cst_2_apply]
  show Ideal.ofBits .f32 0x00000000#32 + _ = _
  rw [Ideal.ofBits_zero_f32, zero_add]
  refine Finset.sum_congr rfl fun k _ => ?_
  rw [show idx_main_v20 (ix3 b h n) k = ix4 b h n k from
    funext fun a => by match a with | ⟨0, _⟩ => rfl | ⟨1, _⟩ => rfl | ⟨2, _⟩ => rfl | ⟨3, _⟩ => rfl, v19_at]

theorem v22_at (b : Fin 4) (h : Fin 16) (n k : Fin 2048) :
    val_main_v22 (F := Ideal) x0 x1 (ix4 b h n k) = denom (Q x0 x1) b h n := by
  rw [val_main_v22_apply, val_main_v21_apply, ← v20_at]
  exact congrArg _ (funext fun a => by match a with | ⟨0, _⟩ => rfl | ⟨1, _⟩ => rfl | ⟨2, _⟩ => rfl)

theorem v23_at (b : Fin 4) (h : Fin 16) (n k : Fin 2048) :
    val_main_v23 (F := Ideal) x0 x1 (ix4 b h n k) = Ideal.div (pexp (Q x0 x1) b h n k) (denom (Q x0 x1) b h n) := by
  rw [val_main_v23_apply, v19_at, v22_at]
  rfl

theorem v24_at (b : Fin 4) (h : Fin 16) (n : Fin 2048) (d : Fin 64) :
    val_main_v24 (F := Ideal) x0 x1 (ix4 b h n d) = attn (Q x0 x1) b h n d := by
  rw [val_main_v24_apply]
  refine Finset.sum_congr rfl fun k _ => ?_
  rw [show lidx_main_v24 (ix4 b h n d) k = ix4 b h n k from
      funext fun a => by match a with | ⟨0, _⟩ => rfl | ⟨1, _⟩ => rfl | ⟨2, _⟩ => rfl | ⟨3, _⟩ => rfl,
    show ridx_main_v24 (ix4 b h n d) k = ix4 b h k d from
      funext fun a => by match a with | ⟨0, _⟩ => rfl | ⟨1, _⟩ => rfl | ⟨2, _⟩ => rfl | ⟨3, _⟩ => rfl,
    v23_at, v9_at]

theorem join_idx (b : Fin 4) (n : Fin 2048) (c : Fin 1024) :
    idx_main_v26 (ix3 b n c) = ix4 b n (headOf c) (dimOf c) := by
  funext a; apply Fin.ext
  match a with
  | ⟨0, _⟩ => show ((b.val * 2048 + n.val) * 1024 + c.val) / 2097152 = b.val; omega
  | ⟨1, _⟩ => show ((b.val * 2048 + n.val) * 1024 + c.val) / 1024 % 2048 = n.val; omega
  | ⟨2, _⟩ => show ((b.val * 2048 + n.val) * 1024 + c.val) / 64 % 16 = c.val / 64; omega
  | ⟨3, _⟩ => show ((b.val * 2048 + n.val) * 1024 + c.val) % 64 = c.val % 64; omega

theorem v26_at (b : Fin 4) (n : Fin 2048) (c : Fin 1024) :
    val_main_v26 (F := Ideal) x0 x1 (ix3 b n c) = attn (Q x0 x1) b (headOf c) n (dimOf c) := by
  rw [val_main_v26_apply, join_idx, val_main_v25_apply,
    show idx_main_v25 (ix4 b n (headOf c) (dimOf c)) = ix4 b (headOf c) n (dimOf c) from
      funext fun a => by match a with | ⟨0, _⟩ => rfl | ⟨1, _⟩ => rfl | ⟨2, _⟩ => rfl | ⟨3, _⟩ => rfl,
    v24_at]

variable (x2 : (⟨S1024x1024, .f32⟩ : BufTy).Contents (Elt Ideal)) (xb : (⟨S1024, .f32⟩ : BufTy).Contents (Elt Ideal))

theorem v27_at (b : Fin 4) (n : Fin 2048) (e : Fin 1024) :
    val_main_v27 (F := Ideal) x0 x1 x2 (ix3 b n e)
      = ∑ c : Fin 1024, attn (Q x0 x1) b (headOf c) n (dimOf c) * mO x2 e c := by
  rw [val_main_v27_apply]
  refine Finset.sum_congr rfl fun c _ => ?_
  rw [show lidx_main_v27 (ix3 b n e) c = ix3 b n c from
      funext fun a => by match a with | ⟨0, _⟩ => rfl | ⟨1, _⟩ => rfl | ⟨2, _⟩ => rfl,
    show ridx_main_v27 (ix3 b n e) c = ix2 e c from
      funext fun a => by match a with | ⟨0, _⟩ => rfl | ⟨1, _⟩ => rfl,
    v26_at]
  rfl

theorem v29_at (b : Fin 4) (n : Fin 2048) (e : Fin 1024) :
    val_main_v29 (F := Ideal) xb (ix3 b n e) = v1 xb e := by
  rw [val_main_v29_apply, val_main_v28_apply]
  exact congrArg xb (funext fun a => by match a with | ⟨0, _⟩ => rfl)

theorem ref_is_G (x0 : (⟨Cert.ReferenceIdeal.S4x2048x1024, .f32⟩ : BufTy).Contents (Elt Ideal)) (x1 : (⟨Cert.ReferenceIdeal.S3072x1024, .f32⟩ : BufTy).Contents (Elt Ideal))
    (x2 : (⟨Cert.ReferenceIdeal.S1024x1024, .f32⟩ : BufTy).Contents (Elt Ideal)) (x3 : (⟨Cert.ReferenceIdeal.S1024, .f32⟩ : BufTy).Contents (Elt Ideal)) :
    Cert.ReferenceIdeal.Read.val_main_v30 (F := Ideal) x0 x1 x2 x3 = Cert.Spec.G x0 x1 x2 x3 := by
  funext i
  obtain ⟨b, n, e, rfl⟩ : ∃ (b : Fin 4) (n : Fin 2048) (e : Fin 1024), i = ix3 b n e := ⟨i 0, i 1, i 2, eq_ix3 i⟩
  rw [val_main_v30_apply, v27_at, v29_at]
  rfl

end Cert.ReferenceIdeal.RefValue

end
-- ==== Proof.SameText.lean ====
import proofs.«413035_j60224031424684_3_alg».proof.Kernel
import proofs.«413035_j60224031424684_3_alg».proof.KernelIdeal

namespace Cert.SameText

open Idealize.ShloMosaic Idealize.SL.Sem

variable {F : FTy → Type} [FloatOps F] [hK : Cert.Kernel.Facts] [hKI : Cert.KernelIdeal.Facts]

/-- The idealization rewrote nothing: label by label the two programs have the same kernel bodies. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl
  | ⟨n + 2, h⟩, _ => exact absurd h (by omega)

/-- Hence one body table, at any float instance; a fact about one program's runs is a fact about the other's. -/
theorem defs_eq : Cert.Kernel.defs (F := F) = Cert.KernelIdeal.defs (F := F) :=
  congrArg (Pipeline.defs Cert.KernelIdeal.pcfgs) defs₀_eq

end Cert.SameText
-- ==== Proof.KI.Region0.lean ====
import proofs.«413035_j60224031424684_3_alg».proof.Proof.Gen.KernelIdeal.Launch
import proofs.«413035_j60224031424684_3_alg».proof.Proof.Gen.KernelIdeal.Skeleton
import proofs.«413035_j60224031424684_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x1024 := Rect.unit (s := S512x1024) ![0, 0] S512x1024.size inb_S512x1024_S512x1024_0_0
abbrev r0_1 : Rect S3072x1024 := Rect.unit (s := S3072x1024) ![0, 0] S3072x1024.size inb_S3072x1024_S3072x1024_0_0
abbrev r0_2 : Rect S512x3072 := Rect.unit (s := S512x3072) ![0, 0] S512x3072.size inb_S512x3072_S512x3072_0_0

def out0_2 (x0 : Vec F S512x1024 .f32) (x1 : Vec F S3072x1024 .bf16) : Vec F S512x3072 .bf16 :=
  View.canon [⟨r0_2, k0_pay1 (View.ld x0 r0_0) (View.ld x1 r0_1)⟩]

theorem cover0_2 (p0 : Vec F S512x3072 .bf16) (y : S512x3072.Idx) :
    ∃ pc ∈ ([⟨r0_2, p0⟩] : List (View.Piece (Elt F) S512x3072 .bf16)), y ∈ pc.1.set :=
  View.cover_of_tiled [⟨r0_2, p0⟩] S512x3072.size (by rfl) y

set_option maxHeartbeats 1000000 in
theorem sound_kernel0 (c : Dev nD) (E : Set ℕ) (i : grid0.Coords)
    (arg1 : Memref sig .tc .vmem S512x1024 .f32) (harg1 : arg1.IsWhole)
    (arg2 : Memref sig .tc .vmem S3072x1024 .bf16) (harg2 : arg2.IsWhole)
    (arg3 : Memref sig .tc .vmem S512x3072 .bf16) (harg3 : arg3.IsWhole)
    (x0 : Vec F S512x1024 .f32) (x1 : Vec F S3072x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qkv_proj_kernel i arg1 harg1 arg2 harg2 arg3 harg3) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.R1Base.lean ====
import proofs.«413035_j60224031424684_3_alg».proof.Proof.Gen.KernelIdeal.Launch
import proofs.«413035_j60224031424684_3_alg».proof.Proof.Gen.KernelIdeal.Skeleton
import proofs.«413035_j60224031424684_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region

abbrev cond1_0 (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1

theorem hcond1_0 : ∀ t : Fin cfg1.N, cond1_0 (grid1.coords t) ↔ t.val % 32 = 0 :=
  (by decide +kernel : ∀ t : Fin grid1.N, cond1_0 (grid1.coords t) ↔ t.val % 32 = 0)

abbrev cond1_1 (i : grid1.Coords) : Prop := (Scalar.cmpi .ne (Scalar.extui (Scalar.cmpi .eq (BitVec.ofNat 32 (i 2).val) 0#32)) 0#32) = 1#1

theorem hcond1_1 : ∀ t : Fin cfg1.N, cond1_1 (grid1.coords t) ↔ t.val % 4 = 0 :=
  (by decide +kernel : ∀ t : Fin grid1.N, cond1_1 (grid1.coords t) ↔ t.val % 4 = 0)

abbrev cond1_2 (i : grid1.Coords) : Prop := (Scalar.cmpi .ne (Scalar.extui (Scalar.cmpi .eq (BitVec.ofNat 32 (i 2).val) 3#32)) 0#32) = 1#1

theorem hcond1_2 : ∀ t : Fin cfg1.N, cond1_2 (grid1.coords t) ↔ t.val % 4 = 3 :=
  (by decide +kernel : ∀ t : Fin grid1.N, cond1_2 (grid1.coords t) ↔ t.val % 4 = 3)

abbrev cond1_3 (i : grid1.Coords) : Prop := k1_cond4 i = 1#1

theorem hcond1_3 : ∀ t : Fin cfg1.N, cond1_3 (grid1.coords t) ↔ t.val % 32 = 31 :=
  (by decide +kernel : ∀ t : Fin grid1.N, cond1_3 (grid1.coords t) ↔ t.val % 32 = 31)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem liveAt1_4 : ∀ t : Fin cfg1.N, cfg1.idle 4 (grid1.coords t) = false := by decide +kernel

theorem idleAt1_5 : ∀ t : Fin cfg1.N, ¬cond1_3 (grid1.coords t) → cfg1.idle 5 (grid1.coords t) = true := by decide +kernel

theorem noFlush1_5 : ∀ t : Fin cfg1.N, ¬cond1_3 (grid1.coords t) → (cfg1.win 5).flush t = false := by decide +kernel

theorem liveAt1_5 : ∀ t : Fin cfg1.N, cond1_3 (grid1.coords t) → cfg1.idle 5 (grid1.coords t) = false := by decide +kernel

abbrev VO1_5 : View sig .tc .vmem S2048x1024 .f32 := (Memref.whole cc1_stg5_0 : Memref sig .tc .vmem S2048x1024 .f32).view

abbrev ms1_0 (t : Fin cfg1.N) : Memref sig .tc .vmem S2048x128 .bf16 := win1_0.stage (cfg1.slots t 0)
abbrev hs1_0 (t : Fin cfg1.N) : (ms1_0 t).IsWhole := hstage1_0 ((cfg1.slots t 0).cast nbuf1_0)

abbrev ms1_1 (t : Fin cfg1.N) : Memref sig .tc .vmem S512x128 .bf16 := win1_1.stage (cfg1.slots t 1)
abbrev hs1_1 (t : Fin cfg1.N) : (ms1_1 t).IsWhole := hstage1_1 ((cfg1.slots t 1).cast nbuf1_1)

abbrev ms1_2 (t : Fin cfg1.N) : Memref sig .tc .vmem S512x128 .bf16 := win1_2.stage (cfg1.slots t 2)
abbrev hs1_2 (t : Fin cfg1.N) : (ms1_2 t).IsWhole := hstage1_2 ((cfg1.slots t 2).cast nbuf1_2)

abbrev ms1_3 (t : Fin cfg1.N) : Memref sig .tc .vmem S1024x128 .bf16 := win1_3.stage (cfg1.slots t 3)
abbrev hs1_3 (t : Fin cfg1.N) : (ms1_3 t).IsWhole := hstage1_3 ((cfg1.slots t 3).cast nbuf1_3)

abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)

abbrev ms1_5 (t : Fin cfg1.N) : Memref sig .tc .vmem S2048x1024 .f32 := win1_5.stage (cfg1.slots t 5)
abbrev hs1_5 (t : Fin cfg1.N) : (ms1_5 t).IsWhole := hstage1_5 ((cfg1.slots t 5).cast nbuf1_5)

abbrev scM1_0 : Memref sig .tc .vmem S2x2048x1 .f32 := Memref.whole cc1_scratch0
abbrev scM1_1 : Memref sig .tc .vmem S2x2048x1 .f32 := Memref.whole cc1_scratch1
abbrev scM1_2 : Memref sig .tc .vmem S2x2048x64 .f32 := Memref.whole cc1_scratch2
abbrev scM1_3 : Memref sig .tc .vmem S2048x1024 .f32 := Memref.whole cc1_scratch3

abbrev VS1_0 : View sig .tc .vmem S2x2048x1 .f32 := scM1_0.view
abbrev VS1_1 : View sig .tc .vmem S2x2048x1 .f32 := scM1_1.view
abbrev VS1_2 : View sig .tc .vmem S2x2048x64 .f32 := scM1_2.view
abbrev VS1_3 : View sig .tc .vmem S2048x1024 .f32 := scM1_3.view

def R0rest (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

theorem PhiA1_eq (c : Dev nD) :
    (Pipeline.ΦA spec1 c : sProp 𝕄)
      = iprop(iprop(R0rest (F := F) c ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole, R0rest]
  have hA : ∀ P Q R : sProp 𝕄, iprop((P ∗ Q) ∗ R) = iprop(P ∗ Q ∗ R) := fun P Q R => BI.Entails.antisymm BI.sep_assoc BI.sep_assoc'
  simp only [hA]
  rfl

end Cert.KernelIdeal.Hand

end
-- ==== Proof.KI.R1RunA.lean ====
import proofs.«413035_j60224031424684_3_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2x2048x1 .f32) (harg9 : arg9.IsWhole) (arg10 : Memref sig .tc .vmem S2x2048x1 .f32) (harg10 : arg10.IsWhole) (arg11 : Memref sig .tc .vmem S2x2048x64 .f32) (harg11 : arg11.IsWhole) (arg12 : Memref sig .tc .vmem S2048x1024 .f32) (harg12 : arg12.IsWhole) (hc0 : cond1_0 i) (hc1 : cond1_1 i) (hc2 : ¬cond1_2 i) (hc3 : ¬cond1_3 i)
    (x0 : Vec F S2048x128 .bf16) (x1 : Vec F S512x128 .bf16) (x2 : Vec F S512x128 .bf16) (x3 : Vec F S1024x128 .bf16) (x4 : Vec F S1x1024 .f32) :
    Σ' (L5 : List (View.Piece (Elt F) S2048x1024 .f32)) (LS0 : List (View.Piece (Elt F) S2x2048x1 .f32)) (LS1 : List (View.Piece (Elt F) S2x2048x1 .f32)) (LS2 : List (View.Piece (Elt F) S2x2048x64 .f32)), { LS3 : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc1__attn_outproj_kernel_eq_skeleton]; unfold cc1__attn_outproj_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

end Cert.KernelIdeal.Hand

end
-- ==== Proof.KI.R1RunB.lean ====
import proofs.«413035_j60224031424684_3_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2x2048x1 .f32) (harg9 : arg9.IsWhole) (arg10 : Memref sig .tc .vmem S2x2048x1 .f32) (harg10 : arg10.IsWhole) (arg11 : Memref sig .tc .vmem S2x2048x64 .f32) (harg11 : arg11.IsWhole) (arg12 : Memref sig .tc .vmem S2048x1024 .f32) (harg12 : arg12.IsWhole) (hc0 : ¬cond1_0 i) (hc1 : ¬cond1_1 i) (hc2 : ¬cond1_2 i) (hc3 : ¬cond1_3 i)
    (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32) :
    Σ' (L5 : List (View.Piece (Elt F) S2048x1024 .f32)) (LS0 : List (View.Piece (Elt F) S2x2048x1 .f32)) (LS1 : List (View.Piece (Elt F) S2x2048x1 .f32)) (LS2 : List (View.Piece (Elt F) S2x2048x64 .f32)), { LS3 : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨[], ?_, ?_, ?_, [], fun xi5 E K => ?run⟩
  case run =>
    simp only [cc1__attn_outproj_kernel_eq_skeleton]; unfold cc1__attn_outproj_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; isplitr; · ipureintro; exact harg12.read_unread _
    iexact H12

end Cert.KernelIdeal.Hand

end
-- ==== Proof.KI.R1RunC.lean ====
import proofs.«413035_j60224031424684_3_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2x2048x1 .f32) (harg9 : arg9.IsWhole) (arg10 : Memref sig .tc .vmem S2x2048x1 .f32) (harg10 : arg10.IsWhole) (arg11 : Memref sig .tc .vmem S2x2048x64 .f32) (harg11 : arg11.IsWhole) (arg12 : Memref sig .tc .vmem S2048x1024 .f32) (harg12 : arg12.IsWhole) (hc0 : ¬cond1_0 i) (hc1 : ¬cond1_1 i) (hc2 : cond1_2 i) (hc3 : ¬cond1_3 i)
    (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32) :
    Σ' (L5 : List (View.Piece (Elt F) S2048x1024 .f32)) (LS0 : List (View.Piece (Elt F) S2x2048x1 .f32)) (LS1 : List (View.Piece (Elt F) S2x2048x1 .f32)) (LS2 : List (View.Piece (Elt F) S2x2048x64 .f32)), { LS3 : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc1__attn_outproj_kernel_eq_skeleton]; unfold cc1__attn_outproj_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

end Cert.KernelIdeal.Hand

end
-- ==== Proof.KI.R1RunD.lean ====
import proofs.«413035_j60224031424684_3_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_D (c : Dev nD) (i : grid1.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2x2048x1 .f32) (harg9 : arg9.IsWhole) (arg10 : Memref sig .tc .vmem S2x2048x1 .f32) (harg10 : arg10.IsWhole) (arg11 : Memref sig .tc .vmem S2x2048x64 .f32) (harg11 : arg11.IsWhole) (arg12 : Memref sig .tc .vmem S2048x1024 .f32) (harg12 : arg12.IsWhole) (hc0 : ¬cond1_0 i) (hc1 : cond1_1 i) (hc2 : ¬cond1_2 i) (hc3 : ¬cond1_3 i)
    (x0 : Vec F S2048x128 .bf16) (x1 : Vec F S512x128 .bf16) (x2 : Vec F S512x128 .bf16) (x3 : Vec F S1024x128 .bf16) (x4 : Vec F S1x1024 .f32) (xs3 : Vec F S2048x1024 .f32) :
    Σ' (L5 : List (View.Piece (Elt F) S2048x1024 .f32)) (LS0 : List (View.Piece (Elt F) S2x2048x1 .f32)) (LS1 : List (View.Piece (Elt F) S2x2048x1 .f32)) (LS2 : List (View.Piece (Elt F) S2x2048x64 .f32)), { LS3 : List (View.Piece (Elt F) S2048x1024 .f32) //
      ∀ (xi5 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ owns (c : Thread nD τ) arg12 fullShare xs3) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨[], ?_, ?_, ?_, [], fun xi5 E K => ?run⟩
  case run =>
    simp only [cc1__attn_outproj_kernel_eq_skeleton]; unfold cc1__attn_outproj_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; isplitr; · ipureintro; exact harg12.read_unread _
    iexact H12

end Cert.KernelIdeal.Hand

end
-- ==== Proof.KI.R1RunE.lean ====
import proofs.«413035_j60224031424684_3_alg».proof.Proof.KI.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_E (c : Dev nD) (i : grid1.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1024x128 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2x2048x1 .f32) (harg9 : arg9.IsWhole) (arg10 : Memref sig .tc .vmem S2x2048x1 .f32) (harg10 : arg10.IsWhole) (arg11 : Memref sig .tc .vmem S2x2048x64 .f32) (harg11 : arg11.IsWhole) (arg12 : Memref sig .tc .vmem S2048x1024 .f32) (harg12 : arg12.IsWhole) (hc0 : ¬cond1_0 i) (hc1 : ¬cond1_1 i) (hc2 : cond1_2 i) (hc3 : cond1_3 i)
    (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32) :
    Σ' (L5 : List (View.Piece (Elt F) S2048x1024 .f32)) (LS0 : List (View.Piece (Elt F) S2x2048x1 .f32)) (LS1 : List (View.Piece (Elt F) S2x2048x1 .f32)) (LS2 : List (View.Piece (Elt F) S2x2048x64 .f32)), { LS3 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc1__attn_outproj_kernel i arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1__attn_outproj_kernel_eq_skeleton]; unfold cc1__attn_outproj_kernel_skel
    unfold owns
    iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, Hk⟩
    obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12
    sl_exec (disch := first | exact hc0 | exact hc1 | exact hc2 | exact hc3)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [H11]; · iexists _; iexact H11
    iexists _; iexact H12

end Cert.KernelIdeal.Hand

end
-- ==== Proof.KI.Region1.lean ====
import proofs.«413035_j60224031424684_3_alg».proof.Proof.KI.R1RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Cases

variable (c : Dev nD) (t : Fin cfg1.N)

/-- The body at grid point `t` in the case t ≡ 0 (mod 32): the residue decides its four conditions. -/
abbrev run1_A (h0 : t.val % 32 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _)
    ((hcond1_0 t).mpr h0) ((hcond1_1 t).mpr (by omega)) (mt (hcond1_2 t).mp (by omega)) (mt (hcond1_3 t).mp (by omega))

/-- The body at grid point `t` in the case t ≡ 1, 2 (mod 4): the residue decides its four conditions. -/
abbrev run1_B (h1 : ¬t.val % 4 = 0) (h2 : ¬t.val % 4 = 3) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _)
    (mt (hcond1_0 t).mp (by omega)) (mt (hcond1_1 t).mp h1) (mt (hcond1_2 t).mp h2) (mt (hcond1_3 t).mp (by omega))

/-- The body at grid point `t` in the case t ≡ 3 (mod 4), not 31 (mod 32): the residue decides its four conditions. -/
abbrev run1_C (h3 : ¬t.val % 32 = 31) (h2 : t.val % 4 = 3) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _)
    (mt (hcond1_0 t).mp (by omega)) (mt (hcond1_1 t).mp (by omega)) ((hcond1_2 t).mpr h2) (mt (hcond1_3 t).mp h3)

/-- The body at grid point `t` in the case t ≡ 0 (mod 4), not 0 (mod 32): the residue decides its four conditions. -/
abbrev run1_D (h0 : ¬t.val % 32 = 0) (h1 : t.val % 4 = 0) :=
  kernelRun1_D (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _)
    (mt (hcond1_0 t).mp h0) ((hcond1_1 t).mpr h1) (mt (hcond1_2 t).mp (by omega)) (mt (hcond1_3 t).mp (by omega))

/-- The body at grid point `t` in the case t ≡ 31 (mod 32): the residue decides its four conditions. -/
abbrev run1_E (h3 : t.val % 32 = 31) :=
  kernelRun1_E (F := F) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _)
    (mt (hcond1_0 t).mp (by omega)) (mt (hcond1_1 t).mp (by omega)) ((hcond1_2 t).mpr (by omega)) ((hcond1_3 t).mpr h3)

section A
variable (h0 : t.val % 32 = 0) (x0 : Vec F S2048x128 .bf16) (x1 : Vec F S512x128 .bf16) (x2 : Vec F S512x128 .bf16) (x3 : Vec F S1024x128 .bf16) (x4 : Vec F S1x1024 .f32)

def out1_A_5 : Vec F S2048x1024 .f32 :=
  VO1_5.read (Elt F) (VO1_5.writes (Elt F) VO1_5.junk (run1_A c t h0 x0 x1 x2 x3 x4).1)

theorem scover1_A_0 (y : S2x2048x1.Idx) :
    ∃ pc ∈ (run1_A c t h0 x0 x1 x2 x3 x4).2.1, y ∈ pc.1.set :=
  View.cover_of_tiledL (run1_A c t h0 x0 x1 x2 x3 x4).2.1 S1x2048x1.size (by sl_kernel_rfl) y

def sout1_A_0 : Vec F S2x2048x1 .f32 :=
  VS1_0.read (Elt F) (VS1_0.writes (Elt F) VS1_0.junk (run1_A c t h0 x0 x1 x2 x3 x4).2.1)

theorem scover1_A_1 (y : S2x2048x1.Idx) :
    ∃ pc ∈ (run1_A c t h0 x0 x1 x2 x3 x4).2.2.1, y ∈ pc.1.set :=
  View.cover_of_tiledL (run1_A c t h0 x0 x1 x2 x3 x4).2.2.1 S1x2048x1.size (by sl_kernel_rfl) y

def sout1_A_1 : Vec F S2x2048x1 .f32 :=
  VS1_1.read (Elt F) (VS1_1.writes (Elt F) VS1_1.junk (run1_A c t h0 x0 x1 x2 x3 x4).2.2.1)

theorem scover1_A_2 (y : S2x2048x64.Idx) :
    ∃ pc ∈ (run1_A c t h0 x0 x1 x2 x3 x4).2.2.2.1, y ∈ pc.1.set :=
  View.cover_of_tiledL (run1_A c t h0 x0 x1 x2 x3 x4).2.2.2.1 S1x2048x64.size (by sl_kernel_rfl) y

def sout1_A_2 : Vec F S2x2048x64 .f32 :=
  VS1_2.read (Elt F) (VS1_2.writes (Elt F) VS1_2.junk (run1_A c t h0 x0 x1 x2 x3 x4).2.2.2.1)

theorem scover1_A_3 (y : S2048x1024.Idx) :
    ∃ pc ∈ (run1_A c t h0 x0 x1 x2 x3 x4).2.2.2.2.1, y ∈ pc.1.set :=
  View.cover_of_tiledL (run1_A c t h0 x0 x1 x2 x3 x4).2.2.2.2.1 S2048x1024.size (by sl_kernel_rfl) y

def sout1_A_3 : Vec F S2048x1024 .f32 :=
  VS1_3.read (Elt F) (VS1_3.writes (Elt F) VS1_3.junk (run1_A c t h0 x0 x1 x2 x3 x4).2.2.2.2.1)

end A

section B
variable (h1 : ¬t.val % 4 = 0) (h2 : ¬t.val % 4 = 3) (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32)

def out1_B_5 : Vec F S2048x1024 .f32 :=
  VO1_5.read (Elt F) (VO1_5.writes (Elt F) VO1_5.junk (run1_B c t h1 h2 x0 x1 x2 x3 x4 xs0 xs1 xs2 xs3).1)

theorem scover1_B_0 (y : S2x2048x1.Idx) :
    ∃ pc ∈ (run1_B c t h1 h2 x0 x1 x2 x3 x4 xs0 xs1 xs2 xs3).2.1, y ∈ pc.1.set :=
  View.cover_of_tiledL (run1_B c t h1 h2 x0 x1 x2 x3 x4 xs0 xs1 xs2 xs3).2.1 S1x2048x1.size (by sl_kernel_rfl) y

def sout1_B_0 : Vec F S2x2048x1 .f32 :=
  VS1_0.read (Elt F) (VS1_0.writes (Elt F) VS1_0.junk (run1_B c t h1 h2 x0 x1 x2 x3 x4 xs0 xs1 xs2 xs3).2.1)

theorem scover1_B_1 (y : S2x2048x1.Idx) :
    ∃ pc ∈ (run1_B c t h1 h2 x0 x1 x2 x3 x4 xs0 xs1 xs2 xs3).2.2.1, y ∈ pc.1.set :=
  View.cover_of_tiledL (run1_B c t h1 h2 x0 x1 x2 x3 x4 xs0 xs1 xs2 xs3).2.2.1 S1x2048x1.size (by sl_kernel_rfl) y

def sout1_B_1 : Vec F S2x2048x1 .f32 :=
  VS1_1.read (Elt F) (VS1_1.writes (Elt F) VS1_1.junk (run1_B c t h1 h2 x0 x1 x2 x3 x4 xs0 xs1 xs2 xs3).2.2.1)

theorem scover1_B_2 (y : S2x2048x64.Idx) :
    ∃ pc ∈ (run1_B c t h1 h2 x0 x1 x2 x3 x4 xs0 xs1 xs2 xs3).2.2.2.1, y ∈ pc.1.set :=
  View.cover_of_tiledL (run1_B c t h1 h2 x0 x1 x2 x3 x4 xs0 xs1 xs2 xs3).2.2.2.1 S1x2048x64.size (by sl_kernel_rfl) y

def sout1_B_2 : Vec F S2x2048x64 .f32 :=
  VS1_2.read (Elt F) (VS1_2.writes (Elt F) VS1_2.junk (run1_B c t h1 h2 x0 x1 x2 x3 x4 xs0 xs1 xs2 xs3).2.2.2.1)

def sout1_B_3 (c : Dev nD) (t : Fin cfg1.N) (h1 : ¬t.val % 4 = 0) (h2 : ¬t.val % 4 = 3) (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32) : Vec F S2048x1024 .f32 := xs3

end B

section C
variable (h3 : ¬t.val % 32 = 31) (h2 : t.val % 4 = 3) (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32)

def out1_C_5 : Vec F S2048x1024 .f32 :=
  VO1_5.read (Elt F) (VO1_5.writes (Elt F) VO1_5.junk (run1_C c t h3 h2 x0 x1 x2 x3 x4 xs0 xs1 xs2 xs3).1)

theorem scover1_C_0 (y : S2x2048x1.Idx) :
    ∃ pc ∈ (run1_C c t h3 h2 x0 x1 x2 x3 x4 xs0 xs1 xs2 xs3).2.1, y ∈ pc.1.set :=
  View.cover_of_tiledL (run1_C c t h3 h2 x0 x1 x2 x3 x4 xs0 xs1 xs2 xs3).2.1 S1x2048x1.size (by sl_kernel_rfl) y

def sout1_C_0 : Vec F S2x2048x1 .f32 :=
  VS1_0.read (Elt F) (VS1_0.writes (Elt F) VS1_0.junk (run1_C c t h3 h2 x0 x1 x2 x3 x4 xs0 xs1 xs2 xs3).2.1)

theorem scover1_C_1 (y : S2x2048x1.Idx) :
    ∃ pc ∈ (run1_C c t h3 h2 x0 x1 x2 x3 x4 xs0 xs1 xs2 xs3).2.2.1, y ∈ pc.1.set :=
  View.cover_of_tiledL (run1_C c t h3 h2 x0 x1 x2 x3 x4 xs0 xs1 xs2 xs3).2.2.1 S1x2048x1.size (by sl_kernel_rfl) y

def sout1_C_1 : Vec F S2x2048x1 .f32 :=
  VS1_1.read (Elt F) (VS1_1.writes (Elt F) VS1_1.junk (run1_C c t h3 h2 x0 x1 x2 x3 x4 xs0 xs1 xs2 xs3).2.2.1)

theorem scover1_C_2 (y : S2x2048x64.Idx) :
    ∃ pc ∈ (run1_C c t h3 h2 x0 x1 x2 x3 x4 xs0 xs1 xs2 xs3).2.2.2.1, y ∈ pc.1.set :=
  View.cover_of_tiledL (run1_C c t h3 h2 x0 x1 x2 x3 x4 xs0 xs1 xs2 xs3).2.2.2.1 S1x2048x64.size (by sl_kernel_rfl) y

def sout1_C_2 : Vec F S2x2048x64 .f32 :=
  VS1_2.read (Elt F) (VS1_2.writes (Elt F) VS1_2.junk (run1_C c t h3 h2 x0 x1 x2 x3 x4 xs0 xs1 xs2 xs3).2.2.2.1)

theorem scover1_C_3 (y : S2048x1024.Idx) :
    ∃ pc ∈ (run1_C c t h3 h2 x0 x1 x2 x3 x4 xs0 xs1 xs2 xs3).2.2.2.2.1, y ∈ pc.1.set :=
  View.cover_of_tiledL (run1_C c t h3 h2 x0 x1 x2 x3 x4 xs0 xs1 xs2 xs3).2.2.2.2.1 S2048x1024.size (by sl_kernel_rfl) y

def sout1_C_3 : Vec F S2048x1024 .f32 :=
  VS1_3.read (Elt F) (VS1_3.writes (Elt F) VS1_3.junk (run1_C c t h3 h2 x0 x1 x2 x3 x4 xs0 xs1 xs2 xs3).2.2.2.2.1)

end C

section D
variable (h0 : ¬t.val % 32 = 0) (h1 : t.val % 4 = 0) (x0 : Vec F S2048x128 .bf16) (x1 : Vec F S512x128 .bf16) (x2 : Vec F S512x128 .bf16) (x3 : Vec F S1024x128 .bf16) (x4 : Vec F S1x1024 .f32) (xs3 : Vec F S2048x1024 .f32)

def out1_D_5 : Vec F S2048x1024 .f32 :=
  VO1_5.read (Elt F) (VO1_5.writes (Elt F) VO1_5.junk (run1_D c t h0 h1 x0 x1 x2 x3 x4 xs3).1)

theorem scover1_D_0 (y : S2x2048x1.Idx) :
    ∃ pc ∈ (run1_D c t h0 h1 x0 x1 x2 x3 x4 xs3).2.1, y ∈ pc.1.set :=
  View.cover_of_tiledL (run1_D c t h0 h1 x0 x1 x2 x3 x4 xs3).2.1 S1x2048x1.size (by sl_kernel_rfl) y

def sout1_D_0 : Vec F S2x2048x1 .f32 :=
  VS1_0.read (Elt F) (VS1_0.writes (Elt F) VS1_0.junk (run1_D c t h0 h1 x0 x1 x2 x3 x4 xs3).2.1)

theorem scover1_D_1 (y : S2x2048x1.Idx) :
    ∃ pc ∈ (run1_D c t h0 h1 x0 x1 x2 x3 x4 xs3).2.2.1, y ∈ pc.1.set :=
  View.cover_of_tiledL (run1_D c t h0 h1 x0 x1 x2 x3 x4 xs3).2.2.1 S1x2048x1.size (by sl_kernel_rfl) y

def sout1_D_1 : Vec F S2x2048x1 .f32 :=
  VS1_1.read (Elt F) (VS1_1.writes (Elt F) VS1_1.junk (run1_D c t h0 h1 x0 x1 x2 x3 x4 xs3).2.2.1)

theorem scover1_D_2 (y : S2x2048x64.Idx) :
    ∃ pc ∈ (run1_D c t h0 h1 x0 x1 x2 x3 x4 xs3).2.2.2.1, y ∈ pc.1.set :=
  View.cover_of_tiledL (run1_D c t h0 h1 x0 x1 x2 x3 x4 xs3).2.2.2.1 S1x2048x64.size (by sl_kernel_rfl) y

def sout1_D_2 : Vec F S2x2048x64 .f32 :=
  VS1_2.read (Elt F) (VS1_2.writes (Elt F) VS1_2.junk (run1_D c t h0 h1 x0 x1 x2 x3 x4 xs3).2.2.2.1)

def sout1_D_3 (c : Dev nD) (t : Fin cfg1.N) (h0 : ¬t.val % 32 = 0) (h1 : t.val % 4 = 0) (x0 : Vec F S2048x128 .bf16) (x1 : Vec F S512x128 .bf16) (x2 : Vec F S512x128 .bf16) (x3 : Vec F S1024x128 .bf16) (x4 : Vec F S1x1024 .f32) (xs3 : Vec F S2048x1024 .f32) : Vec F S2048x1024 .f32 := xs3

end D

section E
variable (h3 : t.val % 32 = 31) (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32)

theorem cover1_E_5 (y : S2048x1024.Idx) :
    ∃ pc ∈ (run1_E c t h3 x0 x1 x2 x3 x4 xs0 xs1 xs2 xs3).1, y ∈ pc.1.set :=
  View.cover_of_tiledL (run1_E c t h3 x0 x1 x2 x3 x4 xs0 xs1 xs2 xs3).1 S2048x1024.size (by sl_kernel_rfl) y

def out1_E_5 : Vec F S2048x1024 .f32 :=
  VO1_5.read (Elt F) (VO1_5.writes (Elt F) VO1_5.junk (run1_E c t h3 x0 x1 x2 x3 x4 xs0 xs1 xs2 xs3).1)

theorem scover1_E_0 (y : S2x2048x1.Idx) :
    ∃ pc ∈ (run1_E c t h3 x0 x1 x2 x3 x4 xs0 xs1 xs2 xs3).2.1, y ∈ pc.1.set :=
  View.cover_of_tiledL (run1_E c t h3 x0 x1 x2 x3 x4 xs0 xs1 xs2 xs3).2.1 S1x2048x1.size (by sl_kernel_rfl) y

def sout1_E_0 : Vec F S2x2048x1 .f32 :=
  VS1_0.read (Elt F) (VS1_0.writes (Elt F) VS1_0.junk (run1_E c t h3 x0 x1 x2 x3 x4 xs0 xs1 xs2 xs3).2.1)

theorem scover1_E_1 (y : S2x2048x1.Idx) :
    ∃ pc ∈ (run1_E c t h3 x0 x1 x2 x3 x4 xs0 xs1 xs2 xs3).2.2.1, y ∈ pc.1.set :=
  View.cover_of_tiledL (run1_E c t h3 x0 x1 x2 x3 x4 xs0 xs1 xs2 xs3).2.2.1 S1x2048x1.size (by sl_kernel_rfl) y

def sout1_E_1 : Vec F S2x2048x1 .f32 :=
  VS1_1.read (Elt F) (VS1_1.writes (Elt F) VS1_1.junk (run1_E c t h3 x0 x1 x2 x3 x4 xs0 xs1 xs2 xs3).2.2.1)

theorem scover1_E_2 (y : S2x2048x64.Idx) :
    ∃ pc ∈ (run1_E c t h3 x0 x1 x2 x3 x4 xs0 xs1 xs2 xs3).2.2.2.1, y ∈ pc.1.set :=
  View.cover_of_tiledL (run1_E c t h3 x0 x1 x2 x3 x4 xs0 xs1 xs2 xs3).2.2.2.1 S1x2048x64.size (by sl_kernel_rfl) y

def sout1_E_2 : Vec F S2x2048x64 .f32 :=
  VS1_2.read (Elt F) (VS1_2.writes (Elt F) VS1_2.junk (run1_E c t h3 x0 x1 x2 x3 x4 xs0 xs1 xs2 xs3).2.2.2.1)

theorem scover1_E_3 (y : S2048x1024.Idx) :
    ∃ pc ∈ (run1_E c t h3 x0 x1 x2 x3 x4 xs0 xs1 xs2 xs3).2.2.2.2.1, y ∈ pc.1.set :=
  View.cover_of_tiledL (run1_E c t h3 x0 x1 x2 x3 x4 xs0 xs1 xs2 xs3).2.2.2.2.1 S2048x1024.size (by sl_kernel_rfl) y

def sout1_E_3 : Vec F S2048x1024 .f32 :=
  VS1_3.read (Elt F) (VS1_3.writes (Elt F) VS1_3.junk (run1_E c t h3 x0 x1 x2 x3 x4 xs0 xs1 xs2 xs3).2.2.2.2.1)

end E

end Cases

section Region

variable (V : (c : Dev nD) → (b : Ref sig .tc) → Buf (Elt F) ((c : Thread nD τ).loc b))

def outsAt1 (c : Dev nD) : (n : ℕ) → n < cfg1.N → Vec F S2048x1024 .f32 × Vec F S2x2048x1 .f32 × Vec F S2x2048x1 .f32 × Vec F S2x2048x64 .f32 × Vec F S2048x1024 .f32
  | 0, hn =>
      (out1_A_5 c ⟨0, hn⟩ (by omega : 0 % 32 = 0) (iblk1 V c 0 ⟨0, hn⟩) (iblk1 V c 1 ⟨0, hn⟩) (iblk1 V c 2 ⟨0, hn⟩) (iblk1 V c 3 ⟨0, hn⟩) (iblk1 V c 4 ⟨0, hn⟩),
        sout1_A_0 c ⟨0, hn⟩ (by omega : 0 % 32 = 0) (iblk1 V c 0 ⟨0, hn⟩) (iblk1 V c 1 ⟨0, hn⟩) (iblk1 V c 2 ⟨0, hn⟩) (iblk1 V c 3 ⟨0, hn⟩) (iblk1 V c 4 ⟨0, hn⟩),
        sout1_A_1 c ⟨0, hn⟩ (by omega : 0 % 32 = 0) (iblk1 V c 0 ⟨0, hn⟩) (iblk1 V c 1 ⟨0, hn⟩) (iblk1 V c 2 ⟨0, hn⟩) (iblk1 V c 3 ⟨0, hn⟩) (iblk1 V c 4 ⟨0, hn⟩),
        sout1_A_2 c ⟨0, hn⟩ (by omega : 0 % 32 = 0) (iblk1 V c 0 ⟨0, hn⟩) (iblk1 V c 1 ⟨0, hn⟩) (iblk1 V c 2 ⟨0, hn⟩) (iblk1 V c 3 ⟨0, hn⟩) (iblk1 V c 4 ⟨0, hn⟩),
        sout1_A_3 c ⟨0, hn⟩ (by omega : 0 % 32 = 0) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 32 = 0 then
      (out1_A_5 c ⟨n + 1, hn⟩ h0 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
        sout1_A_0 c ⟨n + 1, hn⟩ h0 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
        sout1_A_1 c ⟨n + 1, hn⟩ h0 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
        sout1_A_2 c ⟨n + 1, hn⟩ h0 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩),
        sout1_A_3 c ⟨n + 1, hn⟩ h0 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else if h1 : (n + 1) % 4 = 0 then
      (out1_D_5 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.2,
        sout1_D_0 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.2,
        sout1_D_1 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.2,
        sout1_D_2 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.2,
        sout1_D_3 c ⟨n + 1, hn⟩ h0 h1 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.2.2.2)
    else if h3 : (n + 1) % 32 = 31 then
      (out1_E_5 c ⟨n + 1, hn⟩ h3 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_E_0 c ⟨n + 1, hn⟩ h3 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_E_1 c ⟨n + 1, hn⟩ h3 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_E_2 c ⟨n + 1, hn⟩ h3 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_E_3 c ⟨n + 1, hn⟩ h3 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
    else if h2 : (n + 1) % 4 = 3 then
      (out1_C_5 c ⟨n + 1, hn⟩ h3 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_0 c ⟨n + 1, hn⟩ h3 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_1 c ⟨n + 1, hn⟩ h3 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_2 c ⟨n + 1, hn⟩ h3 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_C_3 c ⟨n + 1, hn⟩ h3 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)
    else
      (out1_B_5 c ⟨n + 1, hn⟩ h1 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_0 c ⟨n + 1, hn⟩ h1 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_1 c ⟨n + 1, hn⟩ h1 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_2 c ⟨n + 1, hn⟩ h1 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2,
        sout1_B_3 c ⟨n + 1, hn⟩ h1 h2 (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2.1 (outsAt1 c n (Nat.lt_of_succ_lt hn)).2.2.2.2)

theorem outsAt1_A (c : Dev nD) (t : Fin cfg1.N) (h0 : t.val % 32 = 0) :
    outsAt1 V c t.val t.isLt =
      (out1_A_5 c t h0 (iblk1 V c 0 t) (iblk1 V c 1 t) (iblk1 V c 2 t) (iblk1 V c 3 t) (iblk1 V c 4 t),
        sout1_A_0 c t h0 (iblk1 V c 0 t) (iblk1 V c 1 t) (iblk1 V c 2 t) (iblk1 V c 3 t) (iblk1 V c 4 t),
        sout1_A_1 c t h0 (iblk1 V c 0 t) (iblk1 V c 1 t) (iblk1 V c 2 t) (iblk1 V c 3 t) (iblk1 V c 4 t),
        sout1_A_2 c t h0 (iblk1 V c 0 t) (iblk1 V c 1 t) (iblk1 V c 2 t) (iblk1 V c 3 t) (iblk1 V c 4 t),
        sout1_A_3 c t h0 (iblk1 V c 0 t) (iblk1 V c 1 t) (iblk1 V c 2 t) (iblk1 V c 3 t) (iblk1 V c 4 t)) := by
  obtain ⟨n, hn⟩ := t
  dsimp only at h0
  cases n with
  | zero => exact rfl
  | succ n => exact (dif_pos h0).trans rfl

theorem outsAt1_D (c : Dev nD) (t : Fin cfg1.N) (h0 : ¬t.val % 32 = 0) (h1 : t.val % 4 = 0) :
    outsAt1 V c t.val t.isLt =
      (out1_D_5 c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2,
        sout1_D_0 c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2,
        sout1_D_1 c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2,
        sout1_D_2 c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2,
        sout1_D_3 c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2) := by
  obtain ⟨n, hn⟩ := t
  dsimp only at h0 h1
  cases n with
  | zero => exfalso; omega
  | succ n => exact (dif_neg h0).trans ((dif_pos h1).trans rfl)

theorem outsAt1_E (c : Dev nD) (t : Fin cfg1.N) (h3 : t.val % 32 = 31) :
    outsAt1 V c t.val t.isLt =
      (out1_E_5 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_E_0 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_E_1 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_E_2 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_E_3 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  dsimp only at h3
  cases n with
  | zero => exfalso; omega
  | succ n => exact (dif_neg (by omega : ¬(n + 1) % 32 = 0)).trans ((dif_neg (by omega : ¬(n + 1) % 4 = 0)).trans ((dif_pos h3).trans rfl))

theorem outsAt1_C (c : Dev nD) (t : Fin cfg1.N) (h3 : ¬t.val % 32 = 31) (h2 : t.val % 4 = 3) :
    outsAt1 V c t.val t.isLt =
      (out1_C_5 c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_0 c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_1 c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_2 c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_C_3 c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  dsimp only at h3 h2
  cases n with
  | zero => exfalso; omega
  | succ n => exact (dif_neg (by omega : ¬(n + 1) % 32 = 0)).trans ((dif_neg (by omega : ¬(n + 1) % 4 = 0)).trans ((dif_neg h3).trans ((dif_pos h2).trans rfl)))

theorem outsAt1_B (c : Dev nD) (t : Fin cfg1.N) (h1 : ¬t.val % 4 = 0) (h2 : ¬t.val % 4 = 3) :
    outsAt1 V c t.val t.isLt =
      (out1_B_5 c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_0 c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_1 c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_2 c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2,
        sout1_B_3 c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  dsimp only at h1 h2
  cases n with
  | zero => exfalso; omega
  | succ n => exact (dif_neg (by omega : ¬(n + 1) % 32 = 0)).trans ((dif_neg h1).trans ((dif_neg (by omega : ¬(n + 1) % 32 = 31)).trans ((dif_neg h2).trans rfl)))

def PhiS1 (c : Dev nD) : (n : ℕ) → n ≤ cfg1.N → sProp 𝕄
  | 0, _ => Pipeline.ΦA spec1 c
  | n + 1, hn => iprop(iprop(R0rest (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(R0rest (F := F) c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop(R0rest (F := F) c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

def q1 : Fin cfg1.W → PosShare TreeShare
  | ⟨0, _⟩ => fullShare.left
  | ⟨1, _⟩ => fullShare.right.left
  | ⟨2, _⟩ => fullShare.right.right
  | _ => fullShare

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q := q1
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 32 = 0
  ·
    rw [Dat.leavesExact_idle (dat1 V c) 5 t (idleAt1_5 t (fun h => absurd ((hcond1_3 t).mp h) (by omega : ¬t.val % 32 = 31))) (noFlush1_5 t (fun h => absurd ((hcond1_3 t).mp h) (by omega : ¬t.val % 32 = 31)))]
    rw [outsAt1_A V c t h0]
    unfold sout1_A_0 sout1_A_1 sout1_A_2 sout1_A_3; (try dsimp only)
    by_cases hz : t.val = 0
    · rw [PhiS1_castSucc V c t, PhiS1_zero V c _ _ hz, PhiA1_eq]
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
      iapply ((run1_A c t h0 (iblk1 V c 0 t) (iblk1 V c 1 t) (iblk1 V c 2 t) (iblk1 V c 3 t) (iblk1 V c 4 t)).2.2.2.2.2 ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, ⟨%es3, HS3⟩⟩
      isplitl [HR HS0 HS1 HS2 HS3 Hg]
      · isplitl [HR HS0 HS1 HS2 HS3]
        · isplitl [HR]; · iexact HR
          isplitl [HS0]
          · unfold owns; iexists _; isplitr
            swap; · iexact HS0
            ipureintro; exact View.read_writes_of_cover _ _ _ _ _ (scover1_A_0 c t h0 (iblk1 V c 0 t) (iblk1 V c 1 t) (iblk1 V c 2 t) (iblk1 V c 3 t) (iblk1 V c 4 t))
          isplitl [HS1]
          · unfold owns; iexists _; isplitr
            swap; · iexact HS1
            ipureintro; exact View.read_writes_of_cover _ _ _ _ _ (scover1_A_1 c t h0 (iblk1 V c 0 t) (iblk1 V c 1 t) (iblk1 V c 2 t) (iblk1 V c 3 t) (iblk1 V c 4 t))
          isplitl [HS2]
          · unfold owns; iexists _; isplitr
            swap; · iexact HS2
            ipureintro; exact View.read_writes_of_cover _ _ _ _ _ (scover1_A_2 c t h0 (iblk1 V c 0 t) (iblk1 V c 1 t) (iblk1 V c 2 t) (iblk1 V c 3 t) (iblk1 V c 4 t))
          unfold owns; iexists _; isplitr
          swap; · iexact HS3
          ipureintro; exact View.read_writes_of_cover _ _ _ _ _ (scover1_A_3 c t h0 (iblk1 V c 0 t) (iblk1 V c 1 t) (iblk1 V c 2 t) (iblk1 V c 3 t) (iblk1 V c 4 t))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
      iapply ((run1_A c t h0 (iblk1 V c 0 t) (iblk1 V c 1 t) (iblk1 V c 2 t) (iblk1 V c 3 t) (iblk1 V c 4 t)).2.2.2.2.2 ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexists _; iexact HS3
      iintro ⟨H0, H1, H2, H3, H4, H5, ⟨%es0, HS0⟩, ⟨%es1, HS1⟩, ⟨%es2, HS2⟩, ⟨%es3, HS3⟩⟩
      isplitl [HR HS0 HS1 HS2 HS3 Hg]
      · isplitl [HR HS0 HS1 HS2 HS3]
        · isplitl [HR]; · iexact HR
          isplitl [HS0]
          · unfold owns; iexists _; isplitr
            swap; · iexact HS0
            ipureintro; exact View.read_writes_of_cover _ _ _ _ _ (scover1_A_0 c t h0 (iblk1 V c 0 t) (iblk1 V c 1 t) (iblk1 V c 2 t) (iblk1 V c 3 t) (iblk1 V c 4 t))
          isplitl [HS1]
          · unfold owns; iexists _; isplitr
            swap; · iexact HS1
            ipureintro; exact View.read_writes_of_cover _ _ _ _ _ (scover1_A_1 c t h0 (iblk1 V c 0 t) (iblk1 V c 1 t) (iblk1 V c 2 t) (iblk1 V c 3 t) (iblk1 V c 4 t))
          isplitl [HS2]
          · unfold owns; iexists _; isplitr
            swap; · iexact HS2
            ipureintro; exact View.read_writes_of_cover _ _ _ _ _ (scover1_A_2 c t h0 (iblk1 V c 0 t) (iblk1 V c 1 t) (iblk1 V c 2 t) (iblk1 V c 3 t) (iblk1 V c 4 t))
          unfold owns; iexists _; isplitr
          swap; · iexact HS3
          ipureintro; exact View.read_writes_of_cover _ _ _ _ _ (scover1_A_3 c t h0 (iblk1 V c 0 t) (iblk1 V c 1 t) (iblk1 V c 2 t) (iblk1 V c 3 t) (iblk1 V c 4 t))
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 4 = 0
    ·
      rw [Dat.leavesExact_idle (dat1 V c) 5 t (idleAt1_5 t (fun h => absurd ((hcond1_3 t).mp h) (by omega : ¬t.val % 32 = 31))) (noFlush1_5 t (fun h => absurd ((hcond1_3 t).mp h) (by omega : ¬t.val % 32 = 31)))]
      rw [outsAt1_D V c t h0 h1]
      unfold sout1_D_0 sout1_D_1 sout1_D_2 sout1_D_3; (try dsimp only)
      have hz : t.val ≠ 0 := by omega
      rw [PhiS1_castSucc V c t, PhiS1_pos V c _ _ hz]
      iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
      iapply ((run1_D c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2).2.2.2.2.2 ((dat1 V c).before 5 t d5) Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      isplitl [HS3]; · iexact HS3
      iintro ⟨H0, H1, H2, H3, H4, H5, ⟨%es0, HS0⟩, ⟨%es1, HS1⟩, ⟨%es2, HS2⟩, HS3⟩
      isplitl [HR HS0 HS1 HS2 HS3 Hg]
      · isplitl [HR HS0 HS1 HS2 HS3]
        · isplitl [HR]; · iexact HR
          isplitl [HS0]
          · unfold owns; iexists _; isplitr
            swap; · iexact HS0
            ipureintro; exact View.read_writes_of_cover _ _ _ _ _ (scover1_D_0 c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2)
          isplitl [HS1]
          · unfold owns; iexists _; isplitr
            swap; · iexact HS1
            ipureintro; exact View.read_writes_of_cover _ _ _ _ _ (scover1_D_1 c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2)
          isplitl [HS2]
          · unfold owns; iexists _; isplitr
            swap; · iexact HS2
            ipureintro; exact View.read_writes_of_cover _ _ _ _ _ (scover1_D_2 c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2)
          iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · by_cases h3 : t.val % 32 = 31
      ·
        rw [show (dat1 V c).leavesExact 5 t = owns (c : Thread nD τ) (ms1_5 t) fullShare ((dat1 V c).after 5 t) from by
          unfold Dat.leavesExact; rw [liveAt1_5 t ((hcond1_3 t).mpr (by omega : t.val % 32 = 31))], after1_5]
        rw [outsAt1_E V c t h3]
        unfold sout1_E_0 sout1_E_1 sout1_E_2 sout1_E_3 out1_E_5; (try dsimp only)
        have hz : t.val ≠ 0 := by omega
        rw [PhiS1_castSucc V c t, PhiS1_pos V c _ _ hz]
        iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
        iapply ((run1_E c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2).2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HS2]; · iexact HS2
        isplitl [HS3]; · iexact HS3
        iintro ⟨H0, H1, H2, H3, H4, ⟨%e5, H5⟩, ⟨%es0, HS0⟩, ⟨%es1, HS1⟩, ⟨%es2, HS2⟩, ⟨%es3, HS3⟩⟩
        isplitl [HR HS0 HS1 HS2 HS3 Hg]
        · isplitl [HR HS0 HS1 HS2 HS3]
          · isplitl [HR]; · iexact HR
            isplitl [HS0]
            · unfold owns; iexists _; isplitr
              swap; · iexact HS0
              ipureintro; exact View.read_writes_of_cover _ _ _ _ _ (scover1_E_0 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
            isplitl [HS1]
            · unfold owns; iexists _; isplitr
              swap; · iexact HS1
              ipureintro; exact View.read_writes_of_cover _ _ _ _ _ (scover1_E_1 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
            isplitl [HS2]
            · unfold owns; iexists _; isplitr
              swap; · iexact HS2
              ipureintro; exact View.read_writes_of_cover _ _ _ _ _ (scover1_E_2 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
            unfold owns; iexists _; isplitr
            swap; · iexact HS3
            ipureintro; exact View.read_writes_of_cover _ _ _ _ _ (scover1_E_3 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_E_5 c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
      · by_cases h2 : t.val % 4 = 3
        ·
          rw [Dat.leavesExact_idle (dat1 V c) 5 t (idleAt1_5 t (fun h => absurd ((hcond1_3 t).mp h) (by omega : ¬t.val % 32 = 31))) (noFlush1_5 t (fun h => absurd ((hcond1_3 t).mp h) (by omega : ¬t.val % 32 = 31)))]
          rw [outsAt1_C V c t h3 h2]
          unfold sout1_C_0 sout1_C_1 sout1_C_2 sout1_C_3; (try dsimp only)
          have hz : t.val ≠ 0 := by omega
          rw [PhiS1_castSucc V c t, PhiS1_pos V c _ _ hz]
          iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
          iapply ((run1_C c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2).2.2.2.2.2 ((dat1 V c).before 5 t d5) Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          isplitl [HS3]; · iexact HS3
          iintro ⟨H0, H1, H2, H3, H4, H5, ⟨%es0, HS0⟩, ⟨%es1, HS1⟩, ⟨%es2, HS2⟩, ⟨%es3, HS3⟩⟩
          isplitl [HR HS0 HS1 HS2 HS3 Hg]
          · isplitl [HR HS0 HS1 HS2 HS3]
            · isplitl [HR]; · iexact HR
              isplitl [HS0]
              · unfold owns; iexists _; isplitr
                swap; · iexact HS0
                ipureintro; exact View.read_writes_of_cover _ _ _ _ _ (scover1_C_0 c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
              isplitl [HS1]
              · unfold owns; iexists _; isplitr
                swap; · iexact HS1
                ipureintro; exact View.read_writes_of_cover _ _ _ _ _ (scover1_C_1 c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
              isplitl [HS2]
              · unfold owns; iexists _; isplitr
                swap; · iexact HS2
                ipureintro; exact View.read_writes_of_cover _ _ _ _ _ (scover1_C_2 c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
              unfold owns; iexists _; isplitr
              swap; · iexact HS3
              ipureintro; exact View.read_writes_of_cover _ _ _ _ _ (scover1_C_3 c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
            iexact Hg
          isplitl [Ho]; · iexact Ho
          isplitl [H0]; · iexact H0
          isplitl [H1]; · iexact H1
          isplitl [H2]; · iexact H2
          isplitl [H3]; · iexact H3
          isplitl [H4]; · iexact H4
          iexists _; iexact H5
        ·
          rw [Dat.leavesExact_idle (dat1 V c) 5 t (idleAt1_5 t (fun h => absurd ((hcond1_3 t).mp h) (by omega : ¬t.val % 32 = 31))) (noFlush1_5 t (fun h => absurd ((hcond1_3 t).mp h) (by omega : ¬t.val % 32 = 31)))]
          rw [outsAt1_B V c t h1 h2]
          unfold sout1_B_0 sout1_B_1 sout1_B_2 sout1_B_3; (try dsimp only)
          have hz : t.val ≠ 0 := by omega
          rw [PhiS1_castSucc V c t, PhiS1_pos V c _ _ hz]
          iintro ⟨⟨⟨HR, HS0, HS1, HS2, HS3⟩, Hg⟩, Ho, ⟨%d0, H0⟩, ⟨%d1, H1⟩, ⟨%d2, H2⟩, ⟨%d3, H3⟩, ⟨%d4, H4⟩, ⟨%d5, H5⟩⟩
          iapply ((run1_B c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2).2.2.2.2.2 ((dat1 V c).before 5 t d5) Set.univ _)
          isplitl [H0]; · iexact H0
          isplitl [H1]; · iexact H1
          isplitl [H2]; · iexact H2
          isplitl [H3]; · iexact H3
          isplitl [H4]; · iexact H4
          isplitl [H5]; · iexact H5
          isplitl [HS0]; · iexact HS0
          isplitl [HS1]; · iexact HS1
          isplitl [HS2]; · iexact HS2
          isplitl [HS3]; · iexact HS3
          iintro ⟨H0, H1, H2, H3, H4, H5, ⟨%es0, HS0⟩, ⟨%es1, HS1⟩, ⟨%es2, HS2⟩, HS3⟩
          isplitl [HR HS0 HS1 HS2 HS3 Hg]
          · isplitl [HR HS0 HS1 HS2 HS3]
            · isplitl [HR]; · iexact HR
              isplitl [HS0]
              · unfold owns; iexists _; isplitr
                swap; · iexact HS0
                ipureintro; exact View.read_writes_of_cover _ _ _ _ _ (scover1_B_0 c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
              isplitl [HS1]
              · unfold owns; iexists _; isplitr
                swap; · iexact HS1
                ipureintro; exact View.read_writes_of_cover _ _ _ _ _ (scover1_B_1 c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
              isplitl [HS2]
              · unfold owns; iexists _; isplitr
                swap; · iexact HS2
                ipureintro; exact View.read_writes_of_cover _ _ _ _ _ (scover1_B_2 c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
              iexact HS3
            iexact Hg
          isplitl [Ho]; · iexact Ho
          isplitl [H0]; · iexact H0
          isplitl [H1]; · iexact H1
          isplitl [H2]; · iexact H2
          isplitl [H3]; · iexact H3
          isplitl [H4]; · iexact H4
          iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS0, HS1, HS2, HS3⟩, Hg⟩
  isplitl [HR HS0 HS1 HS2 HS3]
  · isplitl [HR]; · iexact HR
    isplitl [HS0]; · iexists _; iexact HS0
    isplitl [HS1]; · iexists _; iexact HS1
    isplitl [HS2]; · iexists _; iexact HS2
    iexists _; iexact HS3
  iexact Hg

theorem hout1 (c : Dev nD) : (dat1 V c).Φ (Fin.last cfg1.N) ⊢ Pipeline.ΦA spec1 c :=
  Phi_out1 V c _ (by rw [Fin.val_last]; have : cfg1.N = 128 := N_1; omega)

end Region

end Cert.KernelIdeal.Hand

end
-- ==== Proof.KI.Run.lean ====
import proofs.«413035_j60224031424684_3_alg».proof.Proof.Gen.KernelIdeal.Launch
import proofs.«413035_j60224031424684_3_alg».proof.Proof.Gen.KernelIdeal.Skeleton
import proofs.«413035_j60224031424684_3_alg».proof.Proof.Gen.KernelIdeal.Points
import proofs.«413035_j60224031424684_3_alg».proof.Proof.KI.Region0
import proofs.«413035_j60224031424684_3_alg».proof.Proof.KI.Region1
import proofs.«413035_j60224031424684_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Shares

variable {c : Dev nD} (dat : Dat τ (Elt F) Unit ℕ (UR sig nD τ) ℕ cfg1 c)
  (Vc Vc' : (b : Ref sig .tc) → Buf (Elt F) ((c : Thread nD τ).loc b))

theorem arrBufs1_eq :
    (Pipeline.arrBufs (Ix := Unit) (Name := ℕ) (U := UR sig nD τ) (Lvl := ℕ) spec1 c Vc : sProp 𝕄)
      = iprop((((c : Thread nD τ).loc main_v4) ↦{fullShare} Vc main_v4) ∗ (((c : Thread nD τ).loc main_v2) ↦{fullShare} Vc main_v2)
          ∗ (((c : Thread nD τ).loc main_v3) ↦{fullShare} Vc main_v3) ∗ (((c : Thread nD τ).loc main_v5) ↦{fullShare} Vc main_v5)) := by
  unfold Pipeline.arrBufs
  exact bigSep_eq_bigSepL_of_eq [main_v4, main_v2, main_v3, main_v5] (by decide) (by decide) _

theorem arr_factor1 (w : Fin cfg1.W) (q : PosShare TreeShare) (X : Buf (Elt F) ((cfg1.win w).arr.view.loc (c : Thread nD τ)))
    (hq : dat.share w = q) :
    ((cfg1.win w).arr.view.loc (c : Thread nD τ) ↦[(cfg1.win w).arr.view.set]{dat.share w} X : sProp 𝕄)
      = (((c : Thread nD τ).loc (Pipeline.arrRef spec1 w)) ↦{q} X) := by
  rw [(arr_whole1 w).set_eq_univ, hq]

theorem arrays1_eq (X : (w : Fin cfg1.W) → Buf (Elt F) ((cfg1.win w).arr.view.loc (c : Thread nD τ)))
    (hq0 : dat.q 0 = fullShare.left) (hq1 : dat.q 1 = fullShare.right.left) (hq2 : dat.q 2 = fullShare.right.right)
    (hq3 : dat.q 3 = fullShare) (hq4 : dat.q 4 = fullShare) :
    (dat.arrays X : sProp 𝕄)
      = iprop((((c : Thread nD τ).loc main_v4) ↦{fullShare.left} X 0) ∗ (((c : Thread nD τ).loc main_v4) ↦{fullShare.right.left} X 1)
          ∗ (((c : Thread nD τ).loc main_v4) ↦{fullShare.right.right} X 2) ∗ (((c : Thread nD τ).loc main_v2) ↦{fullShare} X 3)
          ∗ (((c : Thread nD τ).loc main_v3) ↦{fullShare} X 4) ∗ (((c : Thread nD τ).loc main_v5) ↦{fullShare} X 5)) := by
  unfold Dat.arrays
  rw [bigSep_W1]
  exact congrArg₂ _ (arr_factor1 dat 0 _ _ ((show dat.share 0 = dat.q 0 from rfl).trans hq0))
    (congrArg₂ _ (arr_factor1 dat 1 _ _ ((show dat.share 1 = dat.q 1 from rfl).trans hq1))
    (congrArg₂ _ (arr_factor1 dat 2 _ _ ((show dat.share 2 = dat.q 2 from rfl).trans hq2))
    (congrArg₂ _ (arr_factor1 dat 3 _ _ ((show dat.share 3 = dat.q 3 from rfl).trans hq3))
    (congrArg₂ _ (arr_factor1 dat 4 _ _ ((show dat.share 4 = dat.q 4 from rfl).trans hq4))
      (arr_factor1 dat 5 _ _ (show dat.share 5 = fullShare from rfl))))))

theorem arrays_of_unscopedBufs1 (hA : ∀ w, dat.A w = Vc (Pipeline.arrRef spec1 w))
    (hq0 : dat.q 0 = fullShare.left) (hq1 : dat.q 1 = fullShare.right.left) (hq2 : dat.q 2 = fullShare.right.right)
    (hq3 : dat.q 3 = fullShare) (hq4 : dat.q 4 = fullShare) :
    (unscopedBufs c Vc : sProp 𝕄)
      ⊢ iprop(dat.arrays (dat.arrAt · 0) ∗ Pipeline.unscopedRest (Ix := Unit) (Name := ℕ) (U := UR sig nD τ) (Lvl := ℕ) spec1 c Vc) := by
  rw [show (unscopedBufs c Vc : sProp 𝕄) = iprop(Pipeline.arrBufs (Ix := Unit) (Name := ℕ) (U := UR sig nD τ) (Lvl := ℕ) spec1 c Vc
        ∗ Pipeline.unscopedRest (Ix := Unit) (Name := ℕ) (U := UR sig nD τ) (Lvl := ℕ) spec1 c Vc)
      from Pipeline.unscopedBufs_split₀ cfgs 1 winFacts₀1.arr_unscoped c Vc,
    arrBufs1_eq, arrays1_eq dat _ hq0 hq1 hq2 hq3 hq4]
  iintro ⟨⟨H4, H2, H3, H5⟩, Hrest⟩
  ihave H4' := (pointsTo_share (PosShare.mem_left_op_right fullShare)).1 $$ H4
  icases H4' with ⟨Ha, Hbc⟩
  ihave Hbc' := (pointsTo_share (PosShare.mem_left_op_right fullShare.right)).1 $$ Hbc
  icases Hbc' with ⟨Hb, Hc⟩
  isplitr [Hrest]
  swap; · iexact Hrest
  isplitl [Ha]; · rw [show dat.arrAt 0 0 = Vc main_v4 from hA 0]; iexact Ha
  isplitl [Hb]; · rw [show dat.arrAt 1 0 = Vc main_v4 from hA 1]; iexact Hb
  isplitl [Hc]; · rw [show dat.arrAt 2 0 = Vc main_v4 from hA 2]; iexact Hc
  isplitl [H2]; · rw [show dat.arrAt 3 0 = Vc main_v2 from hA 3]; iexact H2
  isplitl [H3]; · rw [show dat.arrAt 4 0 = Vc main_v3 from hA 4]; iexact H3
  rw [show dat.arrAt 5 0 = Vc main_v5 from hA 5]; iexact H5

theorem unscopedBufs_of_arrays1 (hA : ∀ w, dat.A w = Vc (Pipeline.arrRef spec1 w))
    (hq0 : dat.q 0 = fullShare.left) (hq1 : dat.q 1 = fullShare.right.left) (hq2 : dat.q 2 = fullShare.right.right)
    (hq3 : dat.q 3 = fullShare) (hq4 : dat.q 4 = fullShare)
    (h5 : Vc' main_v5 = dat.arrAt 5 cfg1.N) (hrest : ∀ b, b ≠ main_v5 → Vc' b = Vc b) :
    iprop(dat.arrays (dat.arrAt · cfg1.N) ∗ Pipeline.unscopedRest (Ix := Unit) (Name := ℕ) (U := UR sig nD τ) (Lvl := ℕ) spec1 c Vc)
      ⊢ (unscopedBufs c Vc' : sProp 𝕄) := by
  have hR : (Pipeline.unscopedRest (Ix := Unit) (Name := ℕ) (U := UR sig nD τ) (Lvl := ℕ) spec1 c Vc : sProp 𝕄)
      = Pipeline.unscopedRest (Ix := Unit) (Name := ℕ) (U := UR sig nD τ) (Lvl := ℕ) spec1 c Vc' := by
    unfold Pipeline.unscopedRest
    exact bigSep_congr fun b hb => by
      rw [hrest b fun e => (Finset.mem_sdiff.mp hb).2 (e ▸ Finset.mem_image.mpr ⟨5, Finset.mem_univ _, rfl⟩)]
  rw [show (unscopedBufs c Vc' : sProp 𝕄) = iprop(Pipeline.arrBufs (Ix := Unit) (Name := ℕ) (U := UR sig nD τ) (Lvl := ℕ) spec1 c Vc'
        ∗ Pipeline.unscopedRest (Ix := Unit) (Name := ℕ) (U := UR sig nD τ) (Lvl := ℕ) spec1 c Vc')
      from Pipeline.unscopedBufs_split₀ cfgs 1 winFacts₀1.arr_unscoped c Vc',
    arrBufs1_eq, arrays1_eq dat _ hq0 hq1 hq2 hq3 hq4, hR]
  rw [show dat.arrAt 0 cfg1.N = Vc' main_v4 from (dat.arrAt_in 0 rfl _).trans ((hA 0).trans (hrest main_v4 (by decide)).symm),
    show dat.arrAt 1 cfg1.N = Vc' main_v4 from (dat.arrAt_in 1 rfl _).trans ((hA 1).trans (hrest main_v4 (by decide)).symm),
    show dat.arrAt 2 cfg1.N = Vc' main_v4 from (dat.arrAt_in 2 rfl _).trans ((hA 2).trans (hrest main_v4 (by decide)).symm),
    show dat.arrAt 3 cfg1.N = Vc' main_v2 from (dat.arrAt_in 3 rfl _).trans ((hA 3).trans (hrest main_v2 (by decide)).symm),
    show dat.arrAt 4 cfg1.N = Vc' main_v3 from (dat.arrAt_in 4 rfl _).trans ((hA 4).trans (hrest main_v3 (by decide)).symm),
    ← h5]
  iintro ⟨⟨Ha, Hb, Hc, H2, H3, H5⟩, Hrest⟩
  isplitr [Hrest]
  swap; · iexact Hrest
  isplitl [Ha Hb Hc]
  · iapply (pointsTo_share (PosShare.mem_left_op_right fullShare)).2
    isplitl [Ha]; · iexact Ha
    iapply (pointsTo_share (PosShare.mem_left_op_right fullShare.right)).2
    isplitl [Hb] <;> iassumption
  isplitl [H2]; · iexact H2
  isplitl [H3]; · iexact H3
  iexact H5

end Shares

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

def W3 (c : Dev nD) : Valuation τ sig (Elt F) :=
  Function.update (W2 m ρ c) (Proc.devRef .tc main_v5) ((dat1 (V2 m ρ) c).arrAt 5 cfg1.N)
theorem W3_out (c : Dev nD) : W3 m ρ c (Proc.devRef .tc main_v5) = (dat1 (V2 m ρ) c).arrAt 5 cfg1.N := by
  unfold W3; exact Function.update_self _ _ _
theorem W3_of_ne (c : Dev nD) (b : Ref sig .tc) (hb : b ≠ main_v5) :
    W3 m ρ c (Proc.devRef .tc b) = W2 m ρ c (Proc.devRef .tc b) := by
  unfold W3; exact Function.update_of_ne (StableHlo.devRef_ne_of_ne hb) _ _

abbrev V3 : (c : Dev nD) → (b : Ref sig .tc) → Buf (Elt F) ((c : Thread nD τ).loc b) := fun c b => W3 m ρ c b

abbrev W4 : Dev nD → Valuation τ sig (Elt F) := fun c => StableHlo.after hostOps2 (W3 m ρ c)

theorem W2_main_v4 (c : Dev nD) : V2 m ρ c main_v4 = (dat0 (V1 m ρ) c).arrAt 2 cfg0.N := W2_arr m ρ c 2

theorem V2_main_v2 (c : Dev nD) : V2 m ρ c main_v2 = V1 m ρ c main_v2 := W2_of_ne m ρ c main_v2 (by decide)
theorem V2_main_v3 (c : Dev nD) : V2 m ρ c main_v3 = V1 m ρ c main_v3 := W2_of_ne m ρ c main_v3 (by decide)

theorem V3_main_v5 (c : Dev nD) : V3 m ρ c main_v5 = (dat1 (V2 m ρ) c).arrAt 5 cfg1.N := W3_out m ρ c

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 _ hostOps2_writes (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := StableHlo.after_of_writes_sub hostOps2 _ hostOps2_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

theorem last_state (c : Dev nD) :
    iprop(StableHlo.held (c : Thread nD τ) (Pipeline.ucRefs τ sig) (W4 m ρ c) ∗ R c)
      ⊢ iprop(Tₙ m ρ c ∗ ∃ W, owes (c : Thread nD τ) (0 : CellTallies nD τ sig Unit) W) := by
  iintro ⟨Hh, Hp, HO⟩
  isplitr [HO]
  swap; · iexact HO
  isplitl [Hh]; · iexact Hh
  iexact Hp

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := arrays_of_unscopedBufs1 (dat1 (V2 m ρ) c) (V2 m ρ c) (A_eq1 (V2 m ρ) c) rfl rfl rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := unscopedBufs_of_arrays1 (dat1 (V2 m ρ) c) (V2 m ρ c) (V3 m ρ c) (A_eq1 (V2 m ρ) c) rfl rfl rfl rfl rfl
      (W3_out m ρ c) (fun b hb => W3_of_ne m ρ c b hb)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, last_state m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.KI.HostSide.lean ====
import proofs.«413035_j60224031424684_3_alg».proof.Proof.Gen.KernelIdeal.Launch
import proofs.«413035_j60224031424684_3_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Cert.KernelIdeal Cert.KernelIdeal.Gen Idealize.ShloMosaic Idealize.ShloMosaic.TcCoe Idealize.ShloMosaic.ValueIdx Idealize.ShloMosaic.StableHlo Cert.Spec

variable (W : Valuation τ sig (Elt Ideal))

theorem host0_v0 (r : Fin 8192) (d : Fin 1024) :
    StableHlo.after (hostOps0 (F := Ideal)) W (Proc.devRef .tc main_v0) (ix2 r d)
      = W (Proc.devRef .tc main_arg0) (ix3 (batchOf r) (posOf r) d) := by
  have e : (StableHlo.after (hostOps0 (F := Ideal)) W (Proc.devRef .tc main_v0) : S8192x1024.Idx → EReal)
      = shapeCast S8192x1024 (W (Proc.devRef .tc main_arg0) : S4x2048x1024.Idx → EReal) shapeCasts_S4x2048x1024_S8192x1024 := by
    dsimp only [hostOps0]; after_results; rfl
  refine (congrFun e (ix2 r d)).trans ?_
  refine shapeCast_apply _ _ _ _ ?_
  show (S4x2048x1024.rowMajor (ix3 (batchOf r) (posOf r) d)).val = (S8192x1024.rowMajor (ix2 r d)).val
  rw [Shape.rowMajor_val_three, Shape.rowMajor_val_two]
  show ((r.val / 2048) * 2048 + r.val % 2048) * 1024 + d.val = r.val * 1024 + d.val
  omega

theorem host0_v1 (e : Fin 3072) (d : Fin 1024) :
    StableHlo.after (hostOps0 (F := Ideal)) W (Proc.devRef .tc main_v1) (ix2 e d)
      = W (Proc.devRef .tc main_arg1) (ix2 e d) := by
  have h : @Eq (FVec Ideal S3072x1024 .bf16) (StableHlo.after (hostOps0 (F := Ideal)) W (Proc.devRef .tc main_v1))
      (truncf .bf16 (W (Proc.devRef .tc main_arg1) : FVec Ideal S3072x1024 .f32) bitsLt_bf16_f32) := by
    dsimp only [hostOps0]; after_results
  exact (congrFun h (ix2 e d)).trans (truncf_apply _ _ _)

theorem host0_v2 (e c : Fin 1024) :
    StableHlo.after (hostOps0 (F := Ideal)) W (Proc.devRef .tc main_v2) (ix2 e c)
      = W (Proc.devRef .tc main_arg2) (ix2 e c) := by
  have h : @Eq (FVec Ideal S1024x1024 .bf16) (StableHlo.after (hostOps0 (F := Ideal)) W (Proc.devRef .tc main_v2))
      (truncf .bf16 (W (Proc.devRef .tc main_arg2) : FVec Ideal S1024x1024 .f32) bitsLt_bf16_f32) := by
    dsimp only [hostOps0]; after_results
  exact (congrFun h (ix2 e c)).trans (truncf_apply _ _ _)

theorem host0_v3 (e : Fin 1024) :
    StableHlo.after (hostOps0 (F := Ideal)) W (Proc.devRef .tc main_v3) (ix2 (0 : Fin 1) e)
      = W (Proc.devRef .tc main_arg3) (ix1 e) := by
  have h : (StableHlo.after (hostOps0 (F := Ideal)) W (Proc.devRef .tc main_v3) : S1x1024.Idx → EReal)
      = shapeCast S1x1024 (W (Proc.devRef .tc main_arg3) : S1024.Idx → EReal) shapeCasts_S1024_S1x1024 := by
    dsimp only [hostOps0]; after_results; rfl
  refine (congrFun h (ix2 (0 : Fin 1) e)).trans ?_
  refine shapeCast_apply _ _ _ _ ?_
  show (S1024.rowMajor (ix1 e)).val = (S1x1024.rowMajor (ix2 (0 : Fin 1) e)).val
  rw [Shape.rowMajor_val_one, Shape.rowMajor_val_two]
  show e.val = 0 * 1024 + e.val
  omega

theorem host2_v6 (b : Fin 4) (n : Fin 2048) (e : Fin 1024) :
    StableHlo.after (hostOps2 (F := Ideal)) W (Proc.devRef .tc main_v6) (ix3 b n e)
      = W (Proc.devRef .tc main_v5) (ix2 (row b n) e) := by
  have h : (StableHlo.after (hostOps2 (F := Ideal)) W (Proc.devRef .tc main_v6) : S4x2048x1024.Idx → EReal)
      = shapeCast S4x2048x1024 (W (Proc.devRef .tc main_v5) : S8192x1024.Idx → EReal) shapeCasts_S8192x1024_S4x2048x1024 := by
    dsimp only [hostOps2]; after_results; rfl
  refine (congrFun h (ix3 b n e)).trans ?_
  refine shapeCast_apply _ _ _ _ ?_
  show (S8192x1024.rowMajor (ix2 (row b n) e)).val = (S4x2048x1024.rowMajor (ix3 b n e)).val
  rw [Shape.rowMajor_val_three, Shape.rowMajor_val_two]
  show (b.val * 2048 + n.val) * 1024 + e.val = (b.val * 2048 + n.val) * 1024 + e.val
  rfl

end Cert.KernelIdeal.Val

end
-- ==== Proof.KI.R0Value.lean ====
import proofs.«413035_j60224031424684_3_alg».proof.Proof.KI.Region0
import proofs.«413035_j60224031424684_3_alg».proof.Proof.Spec
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

theorem lhs_qkv_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_qkv_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_qkv_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_qkv_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

theorem matmul_qkv_apply (a : FVec Ideal S512x1024 .bf16) (b : FVec Ideal S3072x1024 .bf16) (p : Fin 512) (q : Fin 3072) :
    matmul (F := Ideal) dot_S512x1024_S3072x1024_S512x3072_1_1_0_0_n_n none a b (constant (F := Ideal) S512x3072 .f32 0x00000000#32) (ix2 p q)
      = ∑ d : Fin 1024, a (ix2 p d) * b (ix2 q d) := by
  refine (Ideal.matmul_constant_zero_apply dot_S512x1024_S3072x1024_S512x3072_1_1_0_0_n_n none a b (ix2 p q)).trans ?_
  rw [← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx (ix2 p q) ((ValueIdx.contrEquiv1 dot_S512x1024_S3072x1024_S512x3072_1_1_0_0_n_n 1024 rfl rfl).symm k) = ix2 p k := funext fun a => Fin.ext (by
    match a with
    | ⟨0, _⟩ => exact lhs_qkv_0 _ _
    | ⟨1, _⟩ => exact (lhs_qkv_1 _ _).trans hk)
  have er : dot_S512x1024_S3072x1024_S512x3072_1_1_0_0_n_n.rhsIdx (ix2 p q) ((ValueIdx.contrEquiv1 dot_S512x1024_S3072x1024_S512x3072_1_1_0_0_n_n 1024 rfl rfl).symm k) = ix2 q k := funext fun a => Fin.ext (by
    match a with
    | ⟨0, _⟩ => exact rhs_qkv_0 _ _
    | ⟨1, _⟩ => exact (rhs_qkv_1 _ _).trans hk)
  rw [el, er]

theorem pay_qkv_apply (x0 : Vec Ideal S512x1024 .f32) (x1 : Vec Ideal S3072x1024 .bf16) (p : Fin 512) (q : Fin 3072) :
    k0_pay1 (F := Ideal) x0 x1 (ix2 p q) = ∑ d : Fin 1024, x0 (ix2 p d) * x1 (ix2 q d) := by
  unfold k0_pay1
  simp only [shapeCast_self]
  exact matmul_qkv_apply _ _ p q

theorem pay_qkv_idx (x0 : Vec Ideal S512x1024 .f32) (x1 : Vec Ideal S3072x1024 .bf16) (j : S512x3072.Idx) :
    k0_pay1 (F := Ideal) x0 x1 j = ∑ d : Fin 1024, x0 (ix2 (j 0) d) * x1 (ix2 (j 1) d) := by
  obtain ⟨p, q, rfl⟩ : ∃ (p : Fin 512) (q : Fin 3072), j = ix2 p q := ⟨j 0, j 1, eq_ix2 j⟩
  exact pay_qkv_apply x0 x1 p q

theorem qkv_zero_offsets : (![0, 0] : Fin 2 → Nat) = fun _ => 0 := funext fun a => by fin_cases a <;> rfl

theorem qkv_block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

theorem flushed_qkv (c : Dev nD) (t : Fin cfg0.N) :
    (dat0 (F := Ideal) V c).flushed 2 t = ((cfg0.win 2).blk t).view.read (Elt Ideal) (Cert.Spec.proj2 (V c main_v0) (V c main_v1)) := by
  show (cfg0.win 2).cut (grid0.coords t) ((dat0 (F := Ideal) V c).after 2 t) = _
  rw [after0_2]
  unfold out0_2
  rw [View.canon_unit_zero qkv_zero_offsets]
  simp only [View.ld_unit_zero (S := S512x1024) qkv_zero_offsets, View.ld_unit_zero (S := S3072x1024) qkv_zero_offsets]
  obtain ⟨e0, e1, e2, e3, e4, e5⟩ := qkv_block_indices t
  funext j
  show k0_pay1 (F := Ideal) (iblk0 V c 0 t) (iblk0 V c 1 t) j = Cert.Spec.proj2 (V c main_v0) (V c main_v1) (((cfg0.win 2).blk t).view.emb j)
  refine (pay_qkv_idx (iblk0 V c 0 t) (iblk0 V c 1 t) j).trans ?_
  unfold Cert.Spec.proj2
  refine Finset.sum_congr rfl fun d _ => ?_
  have h0 : ((cfg0.win 0).blk t).view.emb (ix2 (j 0) d) = ix2 ((((cfg0.win 2).blk t).view.emb j) 0) d := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 1024 + 1 * d.val = d.val; omega
  have h1 : ((cfg0.win 1).blk t).view.emb (ix2 (j 1) d) = ix2 ((((cfg0.win 2).blk t).view.emb j) 1) d := by
    funext a; apply Fin.ext
    match a with
    | ⟨0, _⟩ => show win0_1.index t (0 : Fin 2) * 3072 + 1 * (j 1).val = win0_2.index t (1 : Fin 2) * 3072 + 1 * (j 1).val; omega
    | ⟨1, _⟩ => show win0_1.index t (1 : Fin 2) * 1024 + 1 * d.val = d.val; omega
  have a0 : (iblk0 V c 0 t (ix2 (j 0) d) : EReal) = (V c main_v0 (ix2 ((((cfg0.win 2).blk t).view.emb j) 0) d) : EReal) :=
    congrArg (V c main_v0) h0
  have a1 : (iblk0 V c 1 t (ix2 (j 1) d) : EReal) = (V c main_v1 (ix2 ((((cfg0.win 2).blk t).view.emb j) 1) d) : EReal) :=
    congrArg (V c main_v1) h1
  exact congrArg₂ (fun u v : EReal => u * v) a0 a1

theorem mem_blk_qkv (t : Fin cfg0.N) (i : S8192x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v4).slice (win0_2.rect t)).set ↔ _
  rw [View.set_slice_whole, Rect.mem_set_unit]
  exact Iff.rfl

theorem cover_qkv (i : S8192x3072.Idx) :
    ∃ t : Fin cfg0.N, (cfg0.win 2).flush t = true ∧ i ∈ ((cfg0.win 2).blk t).view.set := by
  have hi0 : (i 0).val < 8192 := (i 0).isLt
  have hi1 : (i 1).val < 3072 := (i 1).isLt
  have hN : cfg0.N = 16 := N_0
  refine ⟨⟨(i 0).val / 512, by omega⟩, flush0_2 _, ?_⟩
  obtain ⟨e0, e1, e2, e3, e4, e5⟩ := qkv_block_indices ⟨(i 0).val / 512, by omega⟩
  rw [mem_blk_qkv]
  intro a
  match a with
  | ⟨0, _⟩ =>
    show win0_2.index ⟨(i 0).val / 512, _⟩ (0 : Fin 2) * 512 ≤ (i 0).val ∧ (i 0).val < win0_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, _⟩ (1 : Fin 2) * 3072 ≤ (i 1).val ∧ (i 1).val < win0_2.index ⟨(i 0).val / 512, _⟩ (1 : Fin 2) * 3072 + 3072
    rw [e5]; omega

theorem region0_value (c : Dev nD) :
    (dat0 (F := Ideal) V c).arrAt 2 cfg0.N = Cert.Spec.proj2 (V c main_v0) (V c main_v1) :=
  (dat0 (F := Ideal) V c).arrAt_eq_of_cover 2 (Cert.Spec.proj2 (V c main_v0) (V c main_v1)) (fun t _ => flushed_qkv V c t) cover_qkv

end

end Cert.KernelIdeal.Hand

end
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

open scoped BigOperators

namespace Cert.LibReal

open Idealize.ShloMosaic

def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

end Cert.LibReal
-- ==== Proof.Spec.Online.lean ====
import proofs.«413035_j60224031424684_3_alg».proof.Proof.Spec
import proofs.«413035_j60224031424684_3_alg».proof.Proof.LibReal
import Mathlib.Analysis.SpecialFunctions.Exp
import Mathlib.Algebra.BigOperators.Fin
import Mathlib.Algebra.Order.BigOperators.Group.Finset
import Mathlib.Logic.Equiv.Fin.Basic

open scoped BigOperators
noncomputable section
namespace Cert.Spec
open Idealize.ShloMosaic Cert.LibReal

theorem sum_fin_mul {M : Type} [AddCommMonoid M] (m n : ℕ) (f : Fin (m * n) → M) :
    ∑ k, f k = ∑ j : Fin m, ∑ p : Fin n,
      f ⟨j.val * n + p.val, by
        have hj := j.isLt; have hp := p.isLt
        calc j.val * n + p.val < j.val * n + n := by omega
          _ = (j.val + 1) * n := by ring
          _ ≤ m * n := Nat.mul_le_mul_right n hj⟩ := by
  rw [← Fintype.sum_prod_type', ← finProdFinEquiv.sum_comp]
  refine Finset.sum_congr rfl fun x _ => ?_
  congr 1
  apply Fin.ext
  simp [finProdFinEquiv, Nat.mul_comm, Nat.add_comm]

theorem sum_fin1024_groups (f : Fin 1024 → EReal) :
    ∑ c : Fin 1024, f c = ∑ g : Fin 8, ∑ c' : Fin 128, f ⟨g.val * 128 + c'.val, by omega⟩ :=
  sum_fin_mul 8 128 f

theorem sum_fin2048_tiles (f : Fin 2048 → EReal) :
    ∑ k : Fin 2048, f k = ∑ j : Fin 4, ∑ p : Fin 512, f ⟨j.val * 512 + p.val, by omega⟩ :=
  sum_fin_mul 4 512 f

theorem isReal_sup {n : ℕ} [NeZero n] (f : Fin n → EReal) (hf : ∀ k, IsReal (f k)) :
    IsReal (Finset.univ.sup f) := by
  obtain ⟨i, _, hi⟩ := Finset.exists_mem_eq_sup Finset.univ ⟨(0 : Fin n), Finset.mem_univ _⟩ f
  rw [hi]; exact hf i

theorem onl_m (s : ℕ → Fin 512 → EReal) (v : ℕ → Fin 512 → Fin 64 → EReal) (j : ℕ) :
    (onl s v j).m = (Finset.range j).sup fun i => Finset.univ.sup (s i) := by
  induction j with
  | zero => rfl
  | succ j ih =>
    rw [Finset.range_add_one, Finset.sup_insert]
    show max (onl s v j).m (Finset.univ.sup (s j)) = _
    rw [ih]; exact sup_comm _ _

theorem rescale_sum (j : ℕ) (M M' : ℝ) (sr : ℕ → Fin 512 → ℝ) (w : ℕ → Fin 512 → ℝ) :
    Real.exp (M - M') * (∑ i ∈ Finset.range j, ∑ p, Real.exp (sr i p - M) * w i p)
        + ∑ p, Real.exp (sr j p - M') * w j p
      = ∑ i ∈ Finset.range (j + 1), ∑ p, Real.exp (sr i p - M') * w i p := by
  rw [Finset.sum_range_succ, Finset.mul_sum]
  congr 1
  refine Finset.sum_congr rfl fun i _ => ?_
  rw [Finset.mul_sum]
  refine Finset.sum_congr rfl fun p _ => ?_
  rw [← mul_assoc, ← Real.exp_add]
  congr 2
  ring

theorem rescale_sum_one (j : ℕ) (M M' : ℝ) (sr : ℕ → Fin 512 → ℝ) :
    Real.exp (M - M') * (∑ i ∈ Finset.range j, ∑ p, Real.exp (sr i p - M))
        + ∑ p, Real.exp (sr j p - M')
      = ∑ i ∈ Finset.range (j + 1), ∑ p, Real.exp (sr i p - M') := by
  simpa using rescale_sum j M M' sr (fun _ _ => 1)

theorem onl_inv (s : ℕ → Fin 512 → EReal) (v : ℕ → Fin 512 → Fin 64 → EReal)
    (sr : ℕ → Fin 512 → ℝ) (vr : ℕ → Fin 512 → Fin 64 → ℝ)
    (hs : ∀ j k, s j k = (sr j k : EReal)) (hv : ∀ j k d, v j k d = (vr j k d : EReal))
    (j : ℕ) (hj : 1 ≤ j) :
    ∃ M : ℝ, (onl s v j).m = (M : EReal)
      ∧ (onl s v j).l = ((∑ i ∈ Finset.range j, ∑ p, Real.exp (sr i p - M) : ℝ) : EReal)
      ∧ ∀ d, (onl s v j).a d
          = ((∑ i ∈ Finset.range j, ∑ p, Real.exp (sr i p - M) * vr i p d : ℝ) : EReal) := by
  induction j, hj using Nat.le_induction with
  | base =>
    obtain ⟨T, hT⟩ := isReal_sup (s 0) fun k => ⟨_, hs 0 k⟩
    have hm : max (⊥ : EReal) (Finset.univ.sup (s 0)) = (T : EReal) := by rw [hT]; exact bot_sup_eq _
    have he : Ideal.exp ((⊥ : EReal) - (T : EReal)) = 0 := by
      rw [EReal.bot_sub]; rfl
    refine ⟨T, hm, ?_, fun d => ?_⟩
    · show Ideal.exp ((⊥ : EReal) - max (⊥ : EReal) (Finset.univ.sup (s 0))) * 0
          + ∑ k : Fin 512, Ideal.exp (s 0 k - max (⊥ : EReal) (Finset.univ.sup (s 0))) = _
      rw [hm, he, Finset.sum_range_one]
      simp only [hs, ← EReal.coe_sub, Ideal.exp_coe, ← coe_sum, mul_zero, zero_add]
    · show Ideal.exp ((⊥ : EReal) - max (⊥ : EReal) (Finset.univ.sup (s 0))) * 0
          + ∑ k : Fin 512, Ideal.exp (s 0 k - max (⊥ : EReal) (Finset.univ.sup (s 0))) * v 0 k d = _
      rw [hm, he, Finset.sum_range_one]
      simp only [hs, hv, ← EReal.coe_sub, Ideal.exp_coe, ← EReal.coe_mul, ← coe_sum, mul_zero, zero_add]
  | succ j hj ih =>
    obtain ⟨M, hM, hL, hA⟩ := ih
    obtain ⟨T, hT⟩ := isReal_sup (s j) fun k => ⟨_, hs j k⟩
    have hm : max (onl s v j).m (Finset.univ.sup (s j)) = ((max M T : ℝ) : EReal) := by
      rw [hM, hT]; exact (EReal.coe_strictMono.monotone.map_max).symm
    refine ⟨max M T, hm, ?_, fun d => ?_⟩
    · show Ideal.exp ((onl s v j).m - max (onl s v j).m (Finset.univ.sup (s j))) * (onl s v j).l
          + ∑ k : Fin 512, Ideal.exp (s j k - max (onl s v j).m (Finset.univ.sup (s j))) = _
      rw [hm, hM, hL, ← rescale_sum_one j M (max M T) sr]
      simp only [hs, ← EReal.coe_sub, Ideal.exp_coe, ← EReal.coe_mul, ← coe_sum, ← EReal.coe_add]
    · show Ideal.exp ((onl s v j).m - max (onl s v j).m (Finset.univ.sup (s j))) * (onl s v j).a d
          + ∑ k : Fin 512, Ideal.exp (s j k - max (onl s v j).m (Finset.univ.sup (s j))) * v j k d = _
      rw [hm, hM, hA, ← rescale_sum j M (max M T) sr (fun i p => vr i p d)]
      simp only [hs, hv, ← EReal.coe_sub, Ideal.exp_coe, ← EReal.coe_mul, ← coe_sum, ← EReal.coe_add]

theorem tileOf_mk (i : ℕ) (p : Fin 512) (h : i * 512 + p.val < 2048) :
    tileOf ⟨i * 512 + p.val, h⟩ = i := by
  show (i * 512 + p.val) / 512 = i
  omega

theorem placeOf_mk (i : ℕ) (p : Fin 512) (h : i * 512 + p.val < 2048) :
    placeOf ⟨i * 512 + p.val, h⟩ = p := by
  apply Fin.ext
  show (i * 512 + p.val) % 512 = p.val
  omega

theorem sup_keys (s : ℕ → Fin 512 → EReal) :
    (Finset.univ.sup fun k : Fin 2048 => s (tileOf k) (placeOf k))
      = (Finset.range 4).sup fun i => Finset.univ.sup (s i) := by
  apply le_antisymm
  · refine Finset.sup_le fun k _ => ?_
    have h : tileOf k ∈ Finset.range 4 := Finset.mem_range.mpr (by
      show k.val / 512 < 4
      omega)
    exact le_trans (Finset.le_sup (f := s (tileOf k)) (Finset.mem_univ (placeOf k)))
      (Finset.le_sup (f := fun i => Finset.univ.sup (s i)) h)
  · refine Finset.sup_le fun i hi => Finset.sup_le fun p _ => ?_
    have hi' : i < 4 := Finset.mem_range.mp hi
    have hlt : i * 512 + p.val < 2048 := by omega
    have h := Finset.le_sup (f := fun k : Fin 2048 => s (tileOf k) (placeOf k))
      (Finset.mem_univ (⟨i * 512 + p.val, hlt⟩ : Fin 2048))
    simp only [tileOf_mk, placeOf_mk] at h
    exact h

theorem onl_final (s : ℕ → Fin 512 → EReal) (v : ℕ → Fin 512 → Fin 64 → EReal)
    (hs : ∀ j k, IsReal (s j k)) (hv : ∀ j k d, IsReal (v j k d)) (d : Fin 64) :
    Ideal.div ((onl s v 4).a d) ((onl s v 4).l)
      = ∑ k : Fin 2048, Ideal.div (Ideal.exp (s (tileOf k) (placeOf k) - Finset.univ.sup fun k' : Fin 2048 => s (tileOf k') (placeOf k')))
            (∑ k' : Fin 2048, Ideal.exp (s (tileOf k') (placeOf k') - Finset.univ.sup fun k'' : Fin 2048 => s (tileOf k'') (placeOf k'')))
          * v (tileOf k) (placeOf k) d := by
  choose sr hsr using hs
  choose vr hvr using hv
  obtain ⟨M, hM, hL, hA⟩ := onl_inv s v sr vr hsr hvr 4 (by norm_num)
  have hMx : (Finset.univ.sup fun k : Fin 2048 => s (tileOf k) (placeOf k)) = (M : EReal) := by
    rw [sup_keys, ← onl_m s v 4, hM]
  have hLpos : 0 < ∑ i ∈ Finset.range 4, ∑ p : Fin 512, Real.exp (sr i p - M) :=
    Finset.sum_pos (fun i _ => Finset.sum_pos (fun p _ => Real.exp_pos _) Finset.univ_nonempty)
      ⟨0, Finset.mem_range.mpr (by norm_num)⟩
  have hden : (∑ k' : Fin 2048, Ideal.exp (s (tileOf k') (placeOf k') - (M : EReal)))
      = ((∑ i ∈ Finset.range 4, ∑ p : Fin 512, Real.exp (sr i p - M) : ℝ) : EReal) := by
    rw [sum_fin2048_tiles, Finset.sum_range]
    simp only [tileOf_mk, placeOf_mk, hsr, ← EReal.coe_sub, Ideal.exp_coe, ← coe_sum]
  rw [hMx, hden, hA d, hL]
  simp only [Ideal.div_coe hLpos.ne']
  rw [sum_fin2048_tiles, Finset.sum_range, Finset.sum_range]
  simp only [tileOf_mk, placeOf_mk, hsr, hvr, ← EReal.coe_sub, Ideal.exp_coe, ← EReal.coe_mul, ← coe_sum]
  congr 1
  rw [Finset.sum_mul]
  refine Finset.sum_congr rfl fun i _ => ?_
  rw [Finset.sum_mul]
  refine Finset.sum_congr rfl fun p _ => ?_
  ring

end Cert.Spec
end
-- ==== Proof.Spec.Tiled.lean ====
import proofs.«413035_j60224031424684_3_alg».proof.Proof.Spec
import proofs.«413035_j60224031424684_3_alg».proof.Proof.Spec.Online
import proofs.«413035_j60224031424684_3_alg».proof.Proof.LibReal
import Mathlib.Algebra.BigOperators.Fin

open scoped BigOperators
noncomputable section
namespace Cert.Spec
open Idealize.ShloMosaic Cert.LibReal

def sT (Q : QKV) (b : Fin 4) (h : Fin 16) (n : Fin 2048) : ℕ → Fin 512 → EReal :=
  fun j p => if hj : j < 4 then score Q b h n ⟨j * 512 + p.val, by omega⟩ else 0

def vT (Q : QKV) (b : Fin 4) (h : Fin 16) : ℕ → Fin 512 → Fin 64 → EReal :=
  fun j p d => if hj : j < 4 then Q b ⟨j * 512 + p.val, by omega⟩ (colV h d) else 0

def headOut (Q : QKV) (b : Fin 4) (h : Fin 16) (n : Fin 2048) (d : Fin 64) : EReal :=
  Ideal.div ((onl (sT Q b h n) (vT Q b h) 4).a d) ((onl (sT Q b h n) (vT Q b h) 4).l)

def pairOut (Q : QKV) (b : Fin 4) (g : Fin 8) (n : Fin 2048) (c' : Fin 128) : EReal :=
  if hc : c'.val < 64 then headOut Q b ⟨2 * g.val, by omega⟩ n ⟨c'.val, hc⟩
  else headOut Q b ⟨2 * g.val + 1, by omega⟩ n ⟨c'.val - 64, by omega⟩

def contrib (Q : QKV) (wo : Fin 1024 → Fin 1024 → EReal) (b : Fin 4) (g : Fin 8) (n : Fin 2048)
    (e : Fin 1024) : EReal :=
  (∑ d : Fin 64, headOut Q b ⟨2 * g.val, by omega⟩ n d * wo e ⟨g.val * 128 + d.val, by omega⟩)
    + ∑ d : Fin 64, headOut Q b ⟨2 * g.val + 1, by omega⟩ n d * wo e ⟨g.val * 128 + (64 + d.val), by omega⟩

def oacc (Q : QKV) (wo : Fin 1024 → Fin 1024 → EReal) (b : Fin 4) (n : Fin 2048) (e : Fin 1024) : ℕ → EReal
  | 0 => 0
  | g + 1 => oacc Q wo b n e g + (if hg : g < 8 then contrib Q wo b ⟨g, hg⟩ n e else 0)

theorem scale_eq : scale = ((1 / 32 : ℝ) : EReal) := by
  unfold scale
  simp [Ideal.ofBits, Ideal.ieee, -EReal.coe_mul]
  norm_num

section
variable {Q : QKV} (hQ : ∀ b n e, IsReal (Q b n e))
include hQ

theorem score_real (b : Fin 4) (h : Fin 16) (n k : Fin 2048) : IsReal (score Q b h n k) :=
  IsReal.mul (IsReal.sum _ _ fun d _ => IsReal.mul (hQ _ _ _) (hQ _ _ _)) ⟨_, scale_eq⟩

theorem sT_real (b : Fin 4) (h : Fin 16) (n : Fin 2048) (j : ℕ) (p : Fin 512) :
    IsReal (sT Q b h n j p) := by
  unfold sT
  split_ifs
  · exact score_real hQ _ _ _ _
  · exact IsReal.zero

theorem vT_real (b : Fin 4) (h : Fin 16) (j : ℕ) (p : Fin 512) (d : Fin 64) :
    IsReal (vT Q b h j p d) := by
  unfold vT
  split_ifs
  · exact hQ _ _ _
  · exact IsReal.zero

end

theorem sT_key (Q : QKV) (b : Fin 4) (h : Fin 16) (n k : Fin 2048) :
    sT Q b h n (tileOf k) (placeOf k) = score Q b h n k := by
  have hj : tileOf k < 4 := by
    show k.val / 512 < 4
    omega
  simp only [sT, dif_pos hj]
  congr 1
  apply Fin.ext
  show k.val / 512 * 512 + k.val % 512 = k.val
  omega

theorem vT_key (Q : QKV) (b : Fin 4) (h : Fin 16) (k : Fin 2048) (d : Fin 64) :
    vT Q b h (tileOf k) (placeOf k) d = Q b k (colV h d) := by
  have hj : tileOf k < 4 := by
    show k.val / 512 < 4
    omega
  simp only [vT, dif_pos hj]
  congr 1
  apply Fin.ext
  show k.val / 512 * 512 + k.val % 512 = k.val
  omega

theorem headOut_eq_attn {Q : QKV} (hQ : ∀ b n e, IsReal (Q b n e)) (b : Fin 4) (h : Fin 16)
    (n : Fin 2048) (d : Fin 64) : headOut Q b h n d = attn Q b h n d := by
  unfold headOut
  rw [onl_final _ _ (sT_real hQ b h n) (vT_real hQ b h) d]
  simp only [sT_key, vT_key]
  rfl

theorem sum_fin128_halves (f : Fin 128 → EReal) :
    ∑ c : Fin 128, f c
      = (∑ d : Fin 64, f ⟨d.val, by omega⟩) + ∑ d : Fin 64, f ⟨64 + d.val, by omega⟩ :=
  Fin.sum_univ_add (a := 64) (b := 64) f

theorem headOf_lo (g : Fin 8) (d : Fin 64) (h : g.val * 128 + d.val < 1024) :
    headOf ⟨g.val * 128 + d.val, h⟩ = ⟨2 * g.val, by omega⟩ := by
  apply Fin.ext
  show (g.val * 128 + d.val) / 64 = 2 * g.val
  omega

theorem dimOf_lo (g : Fin 8) (d : Fin 64) (h : g.val * 128 + d.val < 1024) :
    dimOf ⟨g.val * 128 + d.val, h⟩ = d := by
  apply Fin.ext
  show (g.val * 128 + d.val) % 64 = d.val
  omega

theorem headOf_hi (g : Fin 8) (d : Fin 64) (h : g.val * 128 + (64 + d.val) < 1024) :
    headOf ⟨g.val * 128 + (64 + d.val), h⟩ = ⟨2 * g.val + 1, by omega⟩ := by
  apply Fin.ext
  show (g.val * 128 + (64 + d.val)) / 64 = 2 * g.val + 1
  omega

theorem dimOf_hi (g : Fin 8) (d : Fin 64) (h : g.val * 128 + (64 + d.val) < 1024) :
    dimOf ⟨g.val * 128 + (64 + d.val), h⟩ = d := by
  apply Fin.ext
  show (g.val * 128 + (64 + d.val)) % 64 = d.val
  omega

theorem contrib_eq {Q : QKV} (hQ : ∀ b n e, IsReal (Q b n e)) (wo : Fin 1024 → Fin 1024 → EReal)
    (b : Fin 4) (g : Fin 8) (n : Fin 2048) (e : Fin 1024) :
    contrib Q wo b g n e
      = ∑ c' : Fin 128, attn Q b (headOf ⟨g.val * 128 + c'.val, by omega⟩) n
          (dimOf ⟨g.val * 128 + c'.val, by omega⟩) * wo e ⟨g.val * 128 + c'.val, by omega⟩ := by
  rw [sum_fin128_halves]
  unfold contrib
  simp only [headOut_eq_attn hQ]
  refine congrArg₂ (fun x y : EReal => x + y) (Finset.sum_congr rfl fun d _ => ?_)
    (Finset.sum_congr rfl fun d _ => ?_)
  · rw [headOf_lo, dimOf_lo]
  · rw [headOf_hi, dimOf_hi]

theorem oacc_eq_sum (Q : QKV) (wo : Fin 1024 → Fin 1024 → EReal) (b : Fin 4) (n : Fin 2048)
    (e : Fin 1024) (g : ℕ) :
    oacc Q wo b n e g
      = ∑ i ∈ Finset.range g, (if hg : i < 8 then contrib Q wo b ⟨i, hg⟩ n e else 0) := by
  induction g with
  | zero => rfl
  | succ g ih => rw [Finset.sum_range_succ, ← ih]; rfl

theorem oacc_eight (Q : QKV) (wo : Fin 1024 → Fin 1024 → EReal) (b : Fin 4) (n : Fin 2048)
    (e : Fin 1024) : oacc Q wo b n e 8 = ∑ g : Fin 8, contrib Q wo b g n e := by
  rw [oacc_eq_sum, Finset.sum_range]
  refine Finset.sum_congr rfl fun g _ => ?_
  rw [dif_pos g.isLt]

theorem attnOut_eq_oacc {Q : QKV} (hQ : ∀ b n e, IsReal (Q b n e)) (wo : Fin 1024 → Fin 1024 → EReal)
    (bo : Fin 1024 → EReal) (b : Fin 4) (n : Fin 2048) (e : Fin 1024) :
    attnOut Q wo bo b n e = oacc Q wo b n e 8 + bo e := by
  show (∑ c : Fin 1024, attn Q b (headOf c) n (dimOf c) * wo e c) + bo e = _
  rw [sum_fin1024_groups, oacc_eight]
  refine congrArg (fun x : EReal => x + bo e) (Finset.sum_congr rfl fun g _ => ?_)
  rw [contrib_eq hQ]

section
variable {Q : QKV} (hQ : ∀ b n e, IsReal (Q b n e))
  {wo : Fin 1024 → Fin 1024 → EReal} (hwo : ∀ e c, IsReal (wo e c))
include hQ

include hwo

end

end Cert.Spec
end
-- ==== Proof.KI.R1StepDefs.lean ====
import proofs.«413035_j60224031424684_3_alg».proof.Proof.Gen.KernelIdeal.Skeleton
import Idealize.ShloMosaic.Lib.ValueIdx

noncomputable section

namespace Cert.KernelIdeal.Hand

open Cert.KernelIdeal Cert.KernelIdeal.Gen
open Idealize.ShloMosaic

variable {F : FTy → Type} [FloatOps F]

def slab1 (X : Vec F S2x2048x1 .f32) (j : Fin 2) : Vec F S1x2048x1 .f32 :=
  fun y => X (ValueIdx.ix3 j (y 1) (y 2))

def slab64 (X : Vec F S2x2048x64 .f32) (j : Fin 2) : Vec F S1x2048x64 .f32 :=
  fun y => X (ValueIdx.ix3 j (y 1) (y 2))

def newM (x0 : Vec F S2048x128 .bf16) (x1 : Vec F S512x128 .bf16) (M : Vec F S2x2048x1 .f32) : Vec F S2x2048x1 .f32 :=
  fun i => if (i 0).val = 0 then k1_pay23 (k1_pay16 x0 x1 (slab1 M 0)) (ValueIdx.ix3 0 (i 1) (i 2))
    else k1_pay3 (k1_pay27 (k1_pay10 x0) (k1_pay11 x1) (slab1 M 1)) (ValueIdx.ix3 0 (i 1) (i 2))

def newL (x0 : Vec F S2048x128 .bf16) (x1 : Vec F S512x128 .bf16) (M L : Vec F S2x2048x1 .f32) : Vec F S2x2048x1 .f32 :=
  fun i => if (i 0).val = 0 then k1_pay21 (k1_pay19 x0 x1 (slab1 M 0) (slab1 L 0)) (k1_pay20 x0 x1 (slab1 M 0)) (ValueIdx.ix3 0 (i 1) (i 2))
    else k1_pay1 (k1_pay28 (k1_pay10 x0) (k1_pay11 x1) (slab1 M 1)) (k1_pay29 (k1_pay10 x0) (k1_pay11 x1) (slab1 M 1)) (slab1 L 1) (ValueIdx.ix3 0 (i 1) (i 2))

def newA (x0 : Vec F S2048x128 .bf16) (x1 x2 : Vec F S512x128 .bf16) (M : Vec F S2x2048x1 .f32) (A : Vec F S2x2048x64 .f32) :
    Vec F S2x2048x64 .f32 :=
  fun i => if (i 0).val = 0 then k1_pay22 (k1_pay13 x2) (k1_pay17 x0 x1 (slab1 M 0)) (k1_pay18 x0 x1 (slab1 M 0)) (slab64 A 0) (ValueIdx.ix3 0 (i 1) (i 2))
    else k1_pay2 (k1_pay24 (k1_pay12 x2)) (k1_pay28 (k1_pay10 x0) (k1_pay11 x1) (slab1 M 1)) (k1_pay29 (k1_pay10 x0) (k1_pay11 x1) (slab1 M 1)) (slab64 A 1) (ValueIdx.ix3 0 (i 1) (i 2))

def newO (x3 : Vec F S1024x128 .bf16) (L' : Vec F S2x2048x1 .f32) (A' : Vec F S2x2048x64 .f32) (O : Vec F S2048x1024 .f32) :
    Vec F S2048x1024 .f32 :=
  k1_pay4 (slab64 A' 0) (slab1 L' 0) (slab64 A' 1) (slab1 L' 1) x3 O

end Cert.KernelIdeal.Hand

end
-- ==== Proof.KI.R1Blocks.lean ====
import proofs.«413035_j60224031424684_3_alg».proof.Proof.KI.R1Base
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx

variable {F : FTy → Type} [FloatOps F]

theorem blockIdx1_0 : ∀ t : Fin cfg1.N, win1_0.index t (0 : Fin 2) = t.val / 32 ∧ win1_0.index t (1 : Fin 2) = (t.val / 4) % 8 :=
  (by decide +kernel : ∀ t : Fin grid1.N, _)

theorem blockIdx1_1 : ∀ t : Fin cfg1.N, win1_1.index t (0 : Fin 2) = (t.val / 32) * 4 + t.val % 4 ∧ win1_1.index t (1 : Fin 2) = 8 + (t.val / 4) % 8 :=
  (by decide +kernel : ∀ t : Fin grid1.N, _)

theorem blockIdx1_2 : ∀ t : Fin cfg1.N, win1_2.index t (0 : Fin 2) = (t.val / 32) * 4 + t.val % 4 ∧ win1_2.index t (1 : Fin 2) = 16 + (t.val / 4) % 8 :=
  (by decide +kernel : ∀ t : Fin grid1.N, _)

theorem blockIdx1_3 : ∀ t : Fin cfg1.N, win1_3.index t (0 : Fin 2) = 0 ∧ win1_3.index t (1 : Fin 2) = (t.val / 4) % 8 :=
  (by decide +kernel : ∀ t : Fin grid1.N, _)

theorem blockIdx1_4 : ∀ t : Fin cfg1.N, win1_4.index t (0 : Fin 2) = 0 ∧ win1_4.index t (1 : Fin 2) = 0 :=
  (by decide +kernel : ∀ t : Fin grid1.N, _)

theorem blockIdx1_5 : ∀ t : Fin cfg1.N, win1_5.index t (0 : Fin 2) = t.val / 32 ∧ win1_5.index t (1 : Fin 2) = 0 :=
  (by decide +kernel : ∀ t : Fin grid1.N, _)

section Region
variable (V : (c : Dev nD) → (b : Ref sig .tc) → Buf (Elt F) ((c : Thread nD τ).loc b))

theorem blk1_0 (c : Dev nD) (t : Fin cfg1.N) (r : Fin 2048) (c' : Fin 128) :
    iblk1 V c 0 t (ix2 r c') = V c main_v4 (ix2 ⟨(t.val / 32) * 2048 + r.val, by have := t.isLt; have hN : cfg1.N = 128 := N_1; omega⟩ ⟨((t.val / 4) % 8) * 128 + c'.val, by omega⟩) := by
  obtain ⟨e0, e1⟩ := blockIdx1_0 t
  show V c main_v4 (((cfg1.win 0).blk t).view.emb (ix2 r c')) = V c main_v4 _
  refine congrArg (V c main_v4) ?_
  funext a; apply Fin.ext
  match a with
  | ⟨0, _⟩ => show win1_0.index t (0 : Fin 2) * 2048 + 1 * r.val = (t.val / 32) * 2048 + r.val; omega
  | ⟨1, _⟩ => show win1_0.index t (1 : Fin 2) * 128 + 1 * c'.val = ((t.val / 4) % 8) * 128 + c'.val; omega

theorem blk1_1 (c : Dev nD) (t : Fin cfg1.N) (p : Fin 512) (c' : Fin 128) :
    iblk1 V c 1 t (ix2 p c') = V c main_v4 (ix2 ⟨((t.val / 32) * 4 + t.val % 4) * 512 + p.val, by have := t.isLt; have hN : cfg1.N = 128 := N_1; omega⟩ ⟨(8 + (t.val / 4) % 8) * 128 + c'.val, by omega⟩) := by
  obtain ⟨e0, e1⟩ := blockIdx1_1 t
  show V c main_v4 (((cfg1.win 1).blk t).view.emb (ix2 p c')) = V c main_v4 _
  refine congrArg (V c main_v4) ?_
  funext a; apply Fin.ext
  match a with
  | ⟨0, _⟩ => show win1_1.index t (0 : Fin 2) * 512 + 1 * p.val = ((t.val / 32) * 4 + t.val % 4) * 512 + p.val; omega
  | ⟨1, _⟩ => show win1_1.index t (1 : Fin 2) * 128 + 1 * c'.val = (8 + (t.val / 4) % 8) * 128 + c'.val; omega

theorem blk1_2 (c : Dev nD) (t : Fin cfg1.N) (p : Fin 512) (c' : Fin 128) :
    iblk1 V c 2 t (ix2 p c') = V c main_v4 (ix2 ⟨((t.val / 32) * 4 + t.val % 4) * 512 + p.val, by have := t.isLt; have hN : cfg1.N = 128 := N_1; omega⟩ ⟨(16 + (t.val / 4) % 8) * 128 + c'.val, by omega⟩) := by
  obtain ⟨e0, e1⟩ := blockIdx1_2 t
  show V c main_v4 (((cfg1.win 2).blk t).view.emb (ix2 p c')) = V c main_v4 _
  refine congrArg (V c main_v4) ?_
  funext a; apply Fin.ext
  match a with
  | ⟨0, _⟩ => show win1_2.index t (0 : Fin 2) * 512 + 1 * p.val = ((t.val / 32) * 4 + t.val % 4) * 512 + p.val; omega
  | ⟨1, _⟩ => show win1_2.index t (1 : Fin 2) * 128 + 1 * c'.val = (16 + (t.val / 4) % 8) * 128 + c'.val; omega

theorem blk1_3 (c : Dev nD) (t : Fin cfg1.N) (e : Fin 1024) (c' : Fin 128) :
    iblk1 V c 3 t (ix2 e c') = V c main_v2 (ix2 e ⟨((t.val / 4) % 8) * 128 + c'.val, by omega⟩) := by
  obtain ⟨e0, e1⟩ := blockIdx1_3 t
  show V c main_v2 (((cfg1.win 3).blk t).view.emb (ix2 e c')) = V c main_v2 _
  refine congrArg (V c main_v2) ?_
  funext a; apply Fin.ext
  match a with
  | ⟨0, _⟩ => show win1_3.index t (0 : Fin 2) * 1024 + 1 * e.val = e.val; omega
  | ⟨1, _⟩ => show win1_3.index t (1 : Fin 2) * 128 + 1 * c'.val = ((t.val / 4) % 8) * 128 + c'.val; omega

theorem blk1_4 (c : Dev nD) (t : Fin cfg1.N) (e : Fin 1024) :
    iblk1 V c 4 t (ix2 0 e) = V c main_v3 (ix2 0 e) := by
  obtain ⟨e0, e1⟩ := blockIdx1_4 t
  show V c main_v3 (((cfg1.win 4).blk t).view.emb (ix2 0 e)) = V c main_v3 _
  refine congrArg (V c main_v3) ?_
  funext a; apply Fin.ext
  match a with
  | ⟨0, _⟩ => show win1_4.index t (0 : Fin 2) * 1 + 1 * 0 = 0; omega
  | ⟨1, _⟩ => show win1_4.index t (1 : Fin 2) * 1024 + 1 * e.val = e.val; omega

end Region

theorem blk1_5_read (t : Fin cfg1.N) (G : S8192x1024.Idx → Elt F .f32) (r : Fin 2048) (e : Fin 1024) :
    ((cfg1.win 5).blk t).view.read (Elt F) G (ix2 r e) = G (ix2 ⟨(t.val / 32) * 2048 + r.val, by have := t.isLt; have hN : cfg1.N = 128 := N_1; omega⟩ e) := by
  obtain ⟨e0, e1⟩ := blockIdx1_5 t
  show G (((cfg1.win 5).blk t).view.emb (ix2 r e)) = G _
  refine congrArg G ?_
  funext a; apply Fin.ext
  match a with
  | ⟨0, _⟩ => show win1_5.index t (0 : Fin 2) * 2048 + 1 * r.val = (t.val / 32) * 2048 + r.val; omega
  | ⟨1, _⟩ => show win1_5.index t (1 : Fin 2) * 1024 + 1 * e.val = e.val; omega

theorem mem_blk1_5 (t : Fin cfg1.N) (i : S8192x1024.Idx) :
    i ∈ ((cfg1.win 5).blk t).view.set ↔ ∀ a : Fin 2, win1_5.index t a * S2048x1024.size a ≤ (i a).val ∧ (i a).val < win1_5.index t a * S2048x1024.size a + S2048x1024.size a := by
  show i ∈ ((View.whole main_v5).slice (win1_5.rect t)).set ↔ _
  rw [View.set_slice_whole, Rect.mem_set_unit]
  exact Iff.rfl

theorem blk1_5_cover (i : S8192x1024.Idx) :
    ∃ t : Fin cfg1.N, (cfg1.win 5).flush t = true ∧ i ∈ ((cfg1.win 5).blk t).view.set := by
  have hi0 : (i 0).val < 8192 := (i 0).isLt
  have hi1 : (i 1).val < 1024 := (i 1).isLt
  have hN : cfg1.N = 128 := N_1
  refine ⟨⟨((i 0).val / 2048) * 32 + 31, by omega⟩, (flush1_5 _).mpr (by show (((i 0).val / 2048) * 32 + 31) % 32 = 31; omega), ?_⟩
  obtain ⟨e0, e1⟩ := blockIdx1_5 ⟨((i 0).val / 2048) * 32 + 31, by omega⟩
  rw [mem_blk1_5]
  intro a
  match a with
  | ⟨0, _⟩ =>
    show win1_5.index ⟨((i 0).val / 2048) * 32 + 31, _⟩ (0 : Fin 2) * 2048 ≤ (i 0).val ∧ (i 0).val < win1_5.index ⟨((i 0).val / 2048) * 32 + 31, _⟩ (0 : Fin 2) * 2048 + 2048
    rw [e0]; show (((i 0).val / 2048) * 32 + 31) / 32 * 2048 ≤ (i 0).val ∧ (i 0).val < (((i 0).val / 2048) * 32 + 31) / 32 * 2048 + 2048; omega
  | ⟨1, _⟩ =>
    show win1_5.index ⟨((i 0).val / 2048) * 32 + 31, _⟩ (1 : Fin 2) * 1024 ≤ (i 1).val ∧ (i 1).val < win1_5.index ⟨((i 0).val / 2048) * 32 + 31, _⟩ (1 : Fin 2) * 1024 + 1024
    rw [e1]; omega

end Cert.KernelIdeal.Val

end
-- ==== Proof.KI.R1Pieces.lean ====
import proofs.«413035_j60224031424684_3_alg».proof.Proof.KI.Region1
import proofs.«413035_j60224031424684_3_alg».proof.Proof.KI.R1StepDefs
import Idealize.ShloMosaic.Lib.Pipeline.FrameBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem pieces_zeros2 : (![0, 0] : Fin 2 → Nat) = fun _ => 0 := funext fun a => by fin_cases a <;> rfl
theorem pieces_zeros3 : (![0, 0, 0] : Fin 3 → Nat) = fun _ => 0 := funext fun a => by fin_cases a <;> rfl

theorem ld_slab1_0 (X : Vec F S2x2048x1 .f32) :
    View.ld X (Rect.unit (s := S2x2048x1) ![0, 0, 0] ![1, 2048, 1] inb_S2x2048x1_S1x2048x1_0_0_0) = slab1 X 0 := by
  funext y
  show X _ = X _
  refine congrArg X (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

theorem ld_slab1_1 (X : Vec F S2x2048x1 .f32) :
    View.ld X (Rect.unit (s := S2x2048x1) ![1, 0, 0] ![1, 2048, 1] inb_S2x2048x1_S1x2048x1_1_0_0) = slab1 X 1 := by
  funext y
  show X _ = X _
  refine congrArg X (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega

theorem ld_slab64_0 (X : Vec F S2x2048x64 .f32) :
    View.ld X (Rect.unit (s := S2x2048x64) ![0, 0, 0] ![1, 2048, 64] inb_S2x2048x64_S1x2048x64_0_0_0) = slab64 X 0 := by
  funext y
  show X _ = X _
  refine congrArg X (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

theorem ld_slab64_1 (X : Vec F S2x2048x64 .f32) :
    View.ld X (Rect.unit (s := S2x2048x64) ![1, 0, 0] ![1, 2048, 64] inb_S2x2048x64_S1x2048x64_1_0_0) = slab64 X 1 := by
  funext y
  show X _ = X _
  refine congrArg X (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega

theorem canon_slabs1 (w1 w0 : Vec F S1x2048x1 .f32) (L : List (View.Piece (Elt F) S2x2048x1 .f32)) :
    View.canon ((⟨Rect.unit (s := S2x2048x1) ![1, 0, 0] S1x2048x1.size inb_S2x2048x1_S1x2048x1_1_0_0, w1⟩ : View.Piece (Elt F) S2x2048x1 .f32)
        :: ⟨Rect.unit (s := S2x2048x1) ![0, 0, 0] S1x2048x1.size inb_S2x2048x1_S1x2048x1_0_0_0, w0⟩ :: L)
      = fun i => if (i 0).val = 0 then w0 (ValueIdx.ix3 0 (i 1) (i 2)) else w1 (ValueIdx.ix3 0 (i 1) (i 2)) := by
  funext i
  have hi0 : (i 0).val < 2 := (i 0).isLt
  by_cases h : (i 0).val = 0
  · rw [if_pos h, View.canon_cons_of_not_mem _ _ (by
      rw [Rect.mem_set_unit]; intro hh
      have h1 : (1 : ℕ) ≤ (i 0).val := (hh 0).1
      omega)]
    have e : i = (Rect.unit (s := S2x2048x1) ![0, 0, 0] S1x2048x1.size inb_S2x2048x1_S1x2048x1_0_0_0).emb (ValueIdx.ix3 0 (i 1) (i 2)) :=
      funext fun a => Fin.ext (by
        match a with
        | ⟨0, _⟩ => show (i 0).val = 0 + 1 * 0; omega
        | ⟨1, _⟩ => show (i 1).val = 0 + 1 * (i 1).val; omega
        | ⟨2, _⟩ => show (i 2).val = 0 + 1 * (i 2).val; omega)
    exact (congrArg (View.canon _) e).trans (View.canon_cons_emb _ _ _ _)
  · rw [if_neg h]
    have e : i = (Rect.unit (s := S2x2048x1) ![1, 0, 0] S1x2048x1.size inb_S2x2048x1_S1x2048x1_1_0_0).emb (ValueIdx.ix3 0 (i 1) (i 2)) :=
      funext fun a => Fin.ext (by
        match a with
        | ⟨0, _⟩ => show (i 0).val = 1 + 1 * 0; omega
        | ⟨1, _⟩ => show (i 1).val = 0 + 1 * (i 1).val; omega
        | ⟨2, _⟩ => show (i 2).val = 0 + 1 * (i 2).val; omega)
    exact (congrArg (View.canon _) e).trans (View.canon_cons_emb _ _ _ _)

theorem canon_slabs64 (w1 w0 : Vec F S1x2048x64 .f32) (L : List (View.Piece (Elt F) S2x2048x64 .f32)) :
    View.canon ((⟨Rect.unit (s := S2x2048x64) ![1, 0, 0] S1x2048x64.size inb_S2x2048x64_S1x2048x64_1_0_0, w1⟩ : View.Piece (Elt F) S2x2048x64 .f32)
        :: ⟨Rect.unit (s := S2x2048x64) ![0, 0, 0] S1x2048x64.size inb_S2x2048x64_S1x2048x64_0_0_0, w0⟩ :: L)
      = fun i => if (i 0).val = 0 then w0 (ValueIdx.ix3 0 (i 1) (i 2)) else w1 (ValueIdx.ix3 0 (i 1) (i 2)) := by
  funext i
  have hi0 : (i 0).val < 2 := (i 0).isLt
  by_cases h : (i 0).val = 0
  · rw [if_pos h, View.canon_cons_of_not_mem _ _ (by
      rw [Rect.mem_set_unit]; intro hh
      have h1 : (1 : ℕ) ≤ (i 0).val := (hh 0).1
      omega)]
    have e : i = (Rect.unit (s := S2x2048x64) ![0, 0, 0] S1x2048x64.size inb_S2x2048x64_S1x2048x64_0_0_0).emb (ValueIdx.ix3 0 (i 1) (i 2)) :=
      funext fun a => Fin.ext (by
        match a with
        | ⟨0, _⟩ => show (i 0).val = 0 + 1 * 0; omega
        | ⟨1, _⟩ => show (i 1).val = 0 + 1 * (i 1).val; omega
        | ⟨2, _⟩ => show (i 2).val = 0 + 1 * (i 2).val; omega)
    exact (congrArg (View.canon _) e).trans (View.canon_cons_emb _ _ _ _)
  · rw [if_neg h]
    have e : i = (Rect.unit (s := S2x2048x64) ![1, 0, 0] S1x2048x64.size inb_S2x2048x64_S1x2048x64_1_0_0).emb (ValueIdx.ix3 0 (i 1) (i 2)) :=
      funext fun a => Fin.ext (by
        match a with
        | ⟨0, _⟩ => show (i 0).val = 1 + 1 * 0; omega
        | ⟨1, _⟩ => show (i 1).val = 0 + 1 * (i 1).val; omega
        | ⟨2, _⟩ => show (i 2).val = 0 + 1 * (i 2).val; omega)
    exact (congrArg (View.canon _) e).trans (View.canon_cons_emb _ _ _ _)

theorem readCov_slabs1_0 (v : View sig .tc .vmem S2x2048x1 .f32) (w1 w0 : Vec F S1x2048x1 .f32) (L : List (View.Piece (Elt F) S2x2048x1 .f32)) :
    v.readCov ((⟨(Rect.unit (s := S2x2048x1) ![1, 0, 0] ![1, 2048, 1] inb_S2x2048x1_S1x2048x1_1_0_0), w1⟩ : View.Piece (Elt F) S2x2048x1 .f32) :: ⟨(Rect.unit (s := S2x2048x1) ![0, 0, 0] ![1, 2048, 1] inb_S2x2048x1_S1x2048x1_0_0_0), w0⟩ :: L) (Rect.unit (s := S2x2048x1) ![0, 0, 0] ![1, 2048, 1] inb_S2x2048x1_S1x2048x1_0_0_0).toLoadRect = w0 := by
  rw [View.readCov_eq_canon']
  funext j
  show View.canon _ ((Rect.unit (s := S2x2048x1) ![0, 0, 0] ![1, 2048, 1] inb_S2x2048x1_S1x2048x1_0_0_0).emb j) = w0 j
  rw [View.canon_cons_of_not_mem _ _ (by
    rw [Rect.mem_set_unit]; intro hh
    have h1 : (1 : ℕ) ≤ 0 + 1 * (j 0).val := (hh 0).1
    have h2 : (j 0).val < 1 := (j 0).isLt
    omega)]
  exact View.canon_cons_emb _ _ _ _

theorem readCov_slabs1_1 (v : View sig .tc .vmem S2x2048x1 .f32) (w1 w0 : Vec F S1x2048x1 .f32) (L : List (View.Piece (Elt F) S2x2048x1 .f32)) :
    v.readCov ((⟨(Rect.unit (s := S2x2048x1) ![1, 0, 0] ![1, 2048, 1] inb_S2x2048x1_S1x2048x1_1_0_0), w1⟩ : View.Piece (Elt F) S2x2048x1 .f32) :: ⟨(Rect.unit (s := S2x2048x1) ![0, 0, 0] ![1, 2048, 1] inb_S2x2048x1_S1x2048x1_0_0_0), w0⟩ :: L) (Rect.unit (s := S2x2048x1) ![1, 0, 0] ![1, 2048, 1] inb_S2x2048x1_S1x2048x1_1_0_0).toLoadRect = w1 := by
  rw [View.readCov_eq_canon']
  funext j
  show View.canon _ ((Rect.unit (s := S2x2048x1) ![1, 0, 0] ![1, 2048, 1] inb_S2x2048x1_S1x2048x1_1_0_0).emb j) = w1 j
  exact View.canon_cons_emb _ _ _ _

theorem readCov_whole1_0 (v : View sig .tc .vmem S2x2048x1 .f32) (w : Vec F S2x2048x1 .f32) (L : List (View.Piece (Elt F) S2x2048x1 .f32)) :
    v.readCov ((⟨(Rect.unit (s := S2x2048x1) ![0, 0, 0] ![2, 2048, 1] inb_S2x2048x1_S2x2048x1_0_0_0), w⟩ : View.Piece (Elt F) S2x2048x1 .f32) :: L) (Rect.unit (s := S2x2048x1) ![0, 0, 0] ![1, 2048, 1] inb_S2x2048x1_S1x2048x1_0_0_0).toLoadRect = slab1 w 0 := by
  rw [View.readCov_eq_canon', View.canon_cons_unit_zero pieces_zeros3]
  exact ld_slab1_0 w

theorem readCov_whole1_1 (v : View sig .tc .vmem S2x2048x1 .f32) (w : Vec F S2x2048x1 .f32) (L : List (View.Piece (Elt F) S2x2048x1 .f32)) :
    v.readCov ((⟨(Rect.unit (s := S2x2048x1) ![0, 0, 0] ![2, 2048, 1] inb_S2x2048x1_S2x2048x1_0_0_0), w⟩ : View.Piece (Elt F) S2x2048x1 .f32) :: L) (Rect.unit (s := S2x2048x1) ![1, 0, 0] ![1, 2048, 1] inb_S2x2048x1_S1x2048x1_1_0_0).toLoadRect = slab1 w 1 := by
  rw [View.readCov_eq_canon', View.canon_cons_unit_zero pieces_zeros3]
  exact ld_slab1_1 w

theorem readCov_skip1 (v : View sig .tc .vmem S2x2048x1 .f32) (w0 : Vec F S1x2048x1 .f32) (L : List (View.Piece (Elt F) S2x2048x1 .f32)) :
    v.readCov ((⟨(Rect.unit (s := S2x2048x1) ![0, 0, 0] ![1, 2048, 1] inb_S2x2048x1_S1x2048x1_0_0_0), w0⟩ : View.Piece (Elt F) S2x2048x1 .f32) :: L) (Rect.unit (s := S2x2048x1) ![1, 0, 0] ![1, 2048, 1] inb_S2x2048x1_S1x2048x1_1_0_0).toLoadRect = v.readCov L (Rect.unit (s := S2x2048x1) ![1, 0, 0] ![1, 2048, 1] inb_S2x2048x1_S1x2048x1_1_0_0).toLoadRect := by
  rw [View.readCov_eq_canon', View.readCov_eq_canon']
  funext j
  show View.canon _ ((Rect.unit (s := S2x2048x1) ![1, 0, 0] ![1, 2048, 1] inb_S2x2048x1_S1x2048x1_1_0_0).emb j) = View.canon _ ((Rect.unit (s := S2x2048x1) ![1, 0, 0] ![1, 2048, 1] inb_S2x2048x1_S1x2048x1_1_0_0).emb j)
  exact View.canon_cons_of_not_mem _ _ (by
    rw [Rect.mem_set_unit]; intro hh
    have h1 : 1 + 1 * (j 0).val < 0 + 1 := (hh 0).2
    omega)

theorem slab1_ite_0 (w0 w1 : Vec F S1x2048x1 .f32) :
    slab1 (fun i => if (i 0).val = 0 then w0 (ValueIdx.ix3 0 (i 1) (i 2)) else w1 (ValueIdx.ix3 0 (i 1) (i 2))) 0 = w0 := by
  funext y
  show (if ((ValueIdx.ix3 (0 : Fin 2) (y 1) (y 2)) 0).val = 0 then w0 (ValueIdx.ix3 0 (y 1) (y 2)) else w1 (ValueIdx.ix3 0 (y 1) (y 2))) = w0 y
  refine (if_pos (show ((ValueIdx.ix3 (0 : Fin 2) (y 1) (y 2)) 0).val = 0 from rfl)).trans ?_
  refine congrArg w0 (funext fun a => ?_)
  have h0 : (y 0).val < 1 := (y 0).isLt
  match a with
  | ⟨0, _⟩ => exact Fin.ext (by show 0 = (y 0).val; omega)
  | ⟨1, _⟩ => rfl
  | ⟨2, _⟩ => rfl

theorem slab1_ite_1 (w0 w1 : Vec F S1x2048x1 .f32) :
    slab1 (fun i => if (i 0).val = 0 then w0 (ValueIdx.ix3 0 (i 1) (i 2)) else w1 (ValueIdx.ix3 0 (i 1) (i 2))) 1 = w1 := by
  funext y
  show (if ((ValueIdx.ix3 (1 : Fin 2) (y 1) (y 2)) 0).val = 0 then w0 (ValueIdx.ix3 0 (y 1) (y 2)) else w1 (ValueIdx.ix3 0 (y 1) (y 2))) = w1 y
  rw [if_neg (by show ¬(1 : ℕ) = 0; omega)]
  refine congrArg w1 (funext fun a => ?_)
  have h0 : (y 0).val < 1 := (y 0).isLt
  match a with
  | ⟨0, _⟩ => exact Fin.ext (by show 0 = (y 0).val; omega)
  | ⟨1, _⟩ => rfl
  | ⟨2, _⟩ => rfl

theorem readCov_slabs64_0 (v : View sig .tc .vmem S2x2048x64 .f32) (w1 w0 : Vec F S1x2048x64 .f32) (L : List (View.Piece (Elt F) S2x2048x64 .f32)) :
    v.readCov ((⟨(Rect.unit (s := S2x2048x64) ![1, 0, 0] ![1, 2048, 64] inb_S2x2048x64_S1x2048x64_1_0_0), w1⟩ : View.Piece (Elt F) S2x2048x64 .f32) :: ⟨(Rect.unit (s := S2x2048x64) ![0, 0, 0] ![1, 2048, 64] inb_S2x2048x64_S1x2048x64_0_0_0), w0⟩ :: L) (Rect.unit (s := S2x2048x64) ![0, 0, 0] ![1, 2048, 64] inb_S2x2048x64_S1x2048x64_0_0_0).toLoadRect = w0 := by
  rw [View.readCov_eq_canon']
  funext j
  show View.canon _ ((Rect.unit (s := S2x2048x64) ![0, 0, 0] ![1, 2048, 64] inb_S2x2048x64_S1x2048x64_0_0_0).emb j) = w0 j
  rw [View.canon_cons_of_not_mem _ _ (by
    rw [Rect.mem_set_unit]; intro hh
    have h1 : (1 : ℕ) ≤ 0 + 1 * (j 0).val := (hh 0).1
    have h2 : (j 0).val < 1 := (j 0).isLt
    omega)]
  exact View.canon_cons_emb _ _ _ _

theorem readCov_slabs64_1 (v : View sig .tc .vmem S2x2048x64 .f32) (w1 w0 : Vec F S1x2048x64 .f32) (L : List (View.Piece (Elt F) S2x2048x64 .f32)) :
    v.readCov ((⟨(Rect.unit (s := S2x2048x64) ![1, 0, 0] ![1, 2048, 64] inb_S2x2048x64_S1x2048x64_1_0_0), w1⟩ : View.Piece (Elt F) S2x2048x64 .f32) :: ⟨(Rect.unit (s := S2x2048x64) ![0, 0, 0] ![1, 2048, 64] inb_S2x2048x64_S1x2048x64_0_0_0), w0⟩ :: L) (Rect.unit (s := S2x2048x64) ![1, 0, 0] ![1, 2048, 64] inb_S2x2048x64_S1x2048x64_1_0_0).toLoadRect = w1 := by
  rw [View.readCov_eq_canon']
  funext j
  show View.canon _ ((Rect.unit (s := S2x2048x64) ![1, 0, 0] ![1, 2048, 64] inb_S2x2048x64_S1x2048x64_1_0_0).emb j) = w1 j
  exact View.canon_cons_emb _ _ _ _

theorem readCov_whole64_0 (v : View sig .tc .vmem S2x2048x64 .f32) (w : Vec F S2x2048x64 .f32) (L : List (View.Piece (Elt F) S2x2048x64 .f32)) :
    v.readCov ((⟨(Rect.unit (s := S2x2048x64) ![0, 0, 0] ![2, 2048, 64] inb_S2x2048x64_S2x2048x64_0_0_0), w⟩ : View.Piece (Elt F) S2x2048x64 .f32) :: L) (Rect.unit (s := S2x2048x64) ![0, 0, 0] ![1, 2048, 64] inb_S2x2048x64_S1x2048x64_0_0_0).toLoadRect = slab64 w 0 := by
  rw [View.readCov_eq_canon', View.canon_cons_unit_zero pieces_zeros3]
  exact ld_slab64_0 w

theorem readCov_whole64_1 (v : View sig .tc .vmem S2x2048x64 .f32) (w : Vec F S2x2048x64 .f32) (L : List (View.Piece (Elt F) S2x2048x64 .f32)) :
    v.readCov ((⟨(Rect.unit (s := S2x2048x64) ![0, 0, 0] ![2, 2048, 64] inb_S2x2048x64_S2x2048x64_0_0_0), w⟩ : View.Piece (Elt F) S2x2048x64 .f32) :: L) (Rect.unit (s := S2x2048x64) ![1, 0, 0] ![1, 2048, 64] inb_S2x2048x64_S1x2048x64_1_0_0).toLoadRect = slab64 w 1 := by
  rw [View.readCov_eq_canon', View.canon_cons_unit_zero pieces_zeros3]
  exact ld_slab64_1 w

theorem readCov_skip64 (v : View sig .tc .vmem S2x2048x64 .f32) (w0 : Vec F S1x2048x64 .f32) (L : List (View.Piece (Elt F) S2x2048x64 .f32)) :
    v.readCov ((⟨(Rect.unit (s := S2x2048x64) ![0, 0, 0] ![1, 2048, 64] inb_S2x2048x64_S1x2048x64_0_0_0), w0⟩ : View.Piece (Elt F) S2x2048x64 .f32) :: L) (Rect.unit (s := S2x2048x64) ![1, 0, 0] ![1, 2048, 64] inb_S2x2048x64_S1x2048x64_1_0_0).toLoadRect = v.readCov L (Rect.unit (s := S2x2048x64) ![1, 0, 0] ![1, 2048, 64] inb_S2x2048x64_S1x2048x64_1_0_0).toLoadRect := by
  rw [View.readCov_eq_canon', View.readCov_eq_canon']
  funext j
  show View.canon _ ((Rect.unit (s := S2x2048x64) ![1, 0, 0] ![1, 2048, 64] inb_S2x2048x64_S1x2048x64_1_0_0).emb j) = View.canon _ ((Rect.unit (s := S2x2048x64) ![1, 0, 0] ![1, 2048, 64] inb_S2x2048x64_S1x2048x64_1_0_0).emb j)
  exact View.canon_cons_of_not_mem _ _ (by
    rw [Rect.mem_set_unit]; intro hh
    have h1 : 1 + 1 * (j 0).val < 0 + 1 := (hh 0).2
    omega)

theorem slab64_ite_0 (w0 w1 : Vec F S1x2048x64 .f32) :
    slab64 (fun i => if (i 0).val = 0 then w0 (ValueIdx.ix3 0 (i 1) (i 2)) else w1 (ValueIdx.ix3 0 (i 1) (i 2))) 0 = w0 := by
  funext y
  show (if ((ValueIdx.ix3 (0 : Fin 2) (y 1) (y 2)) 0).val = 0 then w0 (ValueIdx.ix3 0 (y 1) (y 2)) else w1 (ValueIdx.ix3 0 (y 1) (y 2))) = w0 y
  refine (if_pos (show ((ValueIdx.ix3 (0 : Fin 2) (y 1) (y 2)) 0).val = 0 from rfl)).trans ?_
  refine congrArg w0 (funext fun a => ?_)
  have h0 : (y 0).val < 1 := (y 0).isLt
  match a with
  | ⟨0, _⟩ => exact Fin.ext (by show 0 = (y 0).val; omega)
  | ⟨1, _⟩ => rfl
  | ⟨2, _⟩ => rfl

theorem slab64_ite_1 (w0 w1 : Vec F S1x2048x64 .f32) :
    slab64 (fun i => if (i 0).val = 0 then w0 (ValueIdx.ix3 0 (i 1) (i 2)) else w1 (ValueIdx.ix3 0 (i 1) (i 2))) 1 = w1 := by
  funext y
  show (if ((ValueIdx.ix3 (1 : Fin 2) (y 1) (y 2)) 0).val = 0 then w0 (ValueIdx.ix3 0 (y 1) (y 2)) else w1 (ValueIdx.ix3 0 (y 1) (y 2))) = w1 y
  rw [if_neg (by show ¬(1 : ℕ) = 0; omega)]
  refine congrArg w1 (funext fun a => ?_)
  have h0 : (y 0).val < 1 := (y 0).isLt
  match a with
  | ⟨0, _⟩ => exact Fin.ext (by show 0 = (y 0).val; omega)
  | ⟨1, _⟩ => rfl
  | ⟨2, _⟩ => rfl

theorem slab1_newL_0 (x0 : Vec F S2048x128 .bf16) (x1 : Vec F S512x128 .bf16) (M L : Vec F S2x2048x1 .f32) :
    slab1 (newL x0 x1 M L) 0 = k1_pay21 (k1_pay19 x0 x1 (slab1 M 0) (slab1 L 0)) (k1_pay20 x0 x1 (slab1 M 0)) := slab1_ite_0 _ _
theorem slab1_newL_1 (x0 : Vec F S2048x128 .bf16) (x1 : Vec F S512x128 .bf16) (M L : Vec F S2x2048x1 .f32) :
    slab1 (newL x0 x1 M L) 1 = k1_pay1 (k1_pay28 (k1_pay10 x0) (k1_pay11 x1) (slab1 M 1)) (k1_pay29 (k1_pay10 x0) (k1_pay11 x1) (slab1 M 1)) (slab1 L 1) := slab1_ite_1 _ _
theorem slab64_newA_0 (x0 : Vec F S2048x128 .bf16) (x1 x2 : Vec F S512x128 .bf16) (M : Vec F S2x2048x1 .f32) (A : Vec F S2x2048x64 .f32) :
    slab64 (newA x0 x1 x2 M A) 0 = k1_pay22 (k1_pay13 x2) (k1_pay17 x0 x1 (slab1 M 0)) (k1_pay18 x0 x1 (slab1 M 0)) (slab64 A 0) := slab64_ite_0 _ _
theorem slab64_newA_1 (x0 : Vec F S2048x128 .bf16) (x1 x2 : Vec F S512x128 .bf16) (M : Vec F S2x2048x1 .f32) (A : Vec F S2x2048x64 .f32) :
    slab64 (newA x0 x1 x2 M A) 1 = k1_pay2 (k1_pay24 (k1_pay12 x2)) (k1_pay28 (k1_pay10 x0) (k1_pay11 x1) (slab1 M 1)) (k1_pay29 (k1_pay10 x0) (k1_pay11 x1) (slab1 M 1)) (slab64 A 1) := slab64_ite_1 _ _

section B
variable {c : Dev nD} {i : grid1.Coords} {arg3 : Memref sig .tc .vmem S2048x128 .bf16} {harg3 : arg3.IsWhole} {arg4 : Memref sig .tc .vmem S512x128 .bf16} {harg4 : arg4.IsWhole} {arg5 : Memref sig .tc .vmem S512x128 .bf16} {harg5 : arg5.IsWhole} {arg6 : Memref sig .tc .vmem S1024x128 .bf16} {harg6 : arg6.IsWhole} {arg7 : Memref sig .tc .vmem S1x1024 .f32} {harg7 : arg7.IsWhole} {arg8 : Memref sig .tc .vmem S2048x1024 .f32} {harg8 : arg8.IsWhole} {arg9 : Memref sig .tc .vmem S2x2048x1 .f32} {harg9 : arg9.IsWhole} {arg10 : Memref sig .tc .vmem S2x2048x1 .f32} {harg10 : arg10.IsWhole} {arg11 : Memref sig .tc .vmem S2x2048x64 .f32} {harg11 : arg11.IsWhole} {arg12 : Memref sig .tc .vmem S2048x1024 .f32} {harg12 : arg12.IsWhole} {hc0 : ¬cond1_0 i} {hc1 : ¬cond1_1 i} {hc2 : ¬cond1_2 i} {hc3 : ¬cond1_3 i} {x0 : Vec F S2048x128 .bf16} {x1 : Vec F S512x128 .bf16} {x2 : Vec F S512x128 .bf16} {x3 : Vec F S1024x128 .bf16} {x4 : Vec F S1x1024 .f32} {xs0 : Vec F S2x2048x1 .f32} {xs1 : Vec F S2x2048x1 .f32} {xs2 : Vec F S2x2048x64 .f32} {xs3 : Vec F S2048x1024 .f32}

/-- In the case t ≡ 1, 2 (mod 4) each list of stored pieces is the update function of what was read. -/
theorem canon1_B :
    let r := kernelRun1_B c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3
    View.canon r.2.1 = newM x0 x1 xs0
      ∧ View.canon r.2.2.1 = newL x0 x1 xs0 xs1
      ∧ View.canon r.2.2.2.1 = newA x0 x1 x2 xs0 xs2 := by
  unfold kernelRun1_B
  dsimp only
  sl_unfold_words
  simp only [View.readAt_eq_ld, harg3.read_unread, harg4.read_unread, harg5.read_unread, harg6.read_unread, harg7.read_unread, harg9.read_unread, harg10.read_unread, harg11.read_unread, harg12.read_unread,
    View.ld_unit_zero (S := S2048x128) pieces_zeros2, View.ld_unit_zero (S := S512x128) pieces_zeros2, View.ld_unit_zero (S := S1024x128) pieces_zeros2, View.ld_unit_zero (S := S1x1024) pieces_zeros2, View.ld_unit_zero (S := S2048x1024) pieces_zeros2,
    ld_slab1_0, ld_slab1_1, ld_slab64_0, ld_slab64_1,
    readCov_slabs1_0, readCov_slabs1_1, readCov_slabs64_0, readCov_slabs64_1, readCov_skip1, readCov_skip64,
    readCov_whole1_0, readCov_whole1_1, readCov_whole64_0, readCov_whole64_1, View.readCov_unit_zero (S := S2048x1024) _ pieces_zeros2]
  refine ⟨?_, ?_, ?_⟩
  · rw [canon_slabs1]; rfl
  · rw [canon_slabs1]; rfl
  · rw [canon_slabs64]; rfl

end B

section C
variable {c : Dev nD} {i : grid1.Coords} {arg3 : Memref sig .tc .vmem S2048x128 .bf16} {harg3 : arg3.IsWhole} {arg4 : Memref sig .tc .vmem S512x128 .bf16} {harg4 : arg4.IsWhole} {arg5 : Memref sig .tc .vmem S512x128 .bf16} {harg5 : arg5.IsWhole} {arg6 : Memref sig .tc .vmem S1024x128 .bf16} {harg6 : arg6.IsWhole} {arg7 : Memref sig .tc .vmem S1x1024 .f32} {harg7 : arg7.IsWhole} {arg8 : Memref sig .tc .vmem S2048x1024 .f32} {harg8 : arg8.IsWhole} {arg9 : Memref sig .tc .vmem S2x2048x1 .f32} {harg9 : arg9.IsWhole} {arg10 : Memref sig .tc .vmem S2x2048x1 .f32} {harg10 : arg10.IsWhole} {arg11 : Memref sig .tc .vmem S2x2048x64 .f32} {harg11 : arg11.IsWhole} {arg12 : Memref sig .tc .vmem S2048x1024 .f32} {harg12 : arg12.IsWhole} {hc0 : ¬cond1_0 i} {hc1 : ¬cond1_1 i} {hc2 : cond1_2 i} {hc3 : ¬cond1_3 i} {x0 : Vec F S2048x128 .bf16} {x1 : Vec F S512x128 .bf16} {x2 : Vec F S512x128 .bf16} {x3 : Vec F S1024x128 .bf16} {x4 : Vec F S1x1024 .f32} {xs0 : Vec F S2x2048x1 .f32} {xs1 : Vec F S2x2048x1 .f32} {xs2 : Vec F S2x2048x64 .f32} {xs3 : Vec F S2048x1024 .f32}

/-- In the case t ≡ 3 (mod 4), not 31 (mod 32) each list of stored pieces is the update function of what was read. -/
theorem canon1_C :
    let r := kernelRun1_C c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3
    View.canon r.2.1 = newM x0 x1 xs0
      ∧ View.canon r.2.2.1 = newL x0 x1 xs0 xs1
      ∧ View.canon r.2.2.2.1 = newA x0 x1 x2 xs0 xs2
      ∧ View.canon r.2.2.2.2.1 = newO x3 (newL x0 x1 xs0 xs1) (newA x0 x1 x2 xs0 xs2) xs3 := by
  unfold kernelRun1_C
  dsimp only
  sl_unfold_words
  simp only [View.readAt_eq_ld, harg3.read_unread, harg4.read_unread, harg5.read_unread, harg6.read_unread, harg7.read_unread, harg9.read_unread, harg10.read_unread, harg11.read_unread, harg12.read_unread,
    View.ld_unit_zero (S := S2048x128) pieces_zeros2, View.ld_unit_zero (S := S512x128) pieces_zeros2, View.ld_unit_zero (S := S1024x128) pieces_zeros2, View.ld_unit_zero (S := S1x1024) pieces_zeros2, View.ld_unit_zero (S := S2048x1024) pieces_zeros2,
    ld_slab1_0, ld_slab1_1, ld_slab64_0, ld_slab64_1,
    readCov_slabs1_0, readCov_slabs1_1, readCov_slabs64_0, readCov_slabs64_1, readCov_skip1, readCov_skip64,
    readCov_whole1_0, readCov_whole1_1, readCov_whole64_0, readCov_whole64_1, View.readCov_unit_zero (S := S2048x1024) _ pieces_zeros2]
  refine ⟨?_, ?_, ?_, ?_⟩
  · rw [canon_slabs1]; rfl
  · rw [canon_slabs1]; rfl
  · rw [canon_slabs64]; rfl
  · rw [View.canon_unit_zero pieces_zeros2]; unfold newO; rw [slab64_newA_0, slab1_newL_0, slab64_newA_1, slab1_newL_1]

end C

section E
variable {c : Dev nD} {i : grid1.Coords} {arg3 : Memref sig .tc .vmem S2048x128 .bf16} {harg3 : arg3.IsWhole} {arg4 : Memref sig .tc .vmem S512x128 .bf16} {harg4 : arg4.IsWhole} {arg5 : Memref sig .tc .vmem S512x128 .bf16} {harg5 : arg5.IsWhole} {arg6 : Memref sig .tc .vmem S1024x128 .bf16} {harg6 : arg6.IsWhole} {arg7 : Memref sig .tc .vmem S1x1024 .f32} {harg7 : arg7.IsWhole} {arg8 : Memref sig .tc .vmem S2048x1024 .f32} {harg8 : arg8.IsWhole} {arg9 : Memref sig .tc .vmem S2x2048x1 .f32} {harg9 : arg9.IsWhole} {arg10 : Memref sig .tc .vmem S2x2048x1 .f32} {harg10 : arg10.IsWhole} {arg11 : Memref sig .tc .vmem S2x2048x64 .f32} {harg11 : arg11.IsWhole} {arg12 : Memref sig .tc .vmem S2048x1024 .f32} {harg12 : arg12.IsWhole} {hc0 : ¬cond1_0 i} {hc1 : ¬cond1_1 i} {hc2 : cond1_2 i} {hc3 : cond1_3 i} {x0 : Vec F S2048x128 .bf16} {x1 : Vec F S512x128 .bf16} {x2 : Vec F S512x128 .bf16} {x3 : Vec F S1024x128 .bf16} {x4 : Vec F S1x1024 .f32} {xs0 : Vec F S2x2048x1 .f32} {xs1 : Vec F S2x2048x1 .f32} {xs2 : Vec F S2x2048x64 .f32} {xs3 : Vec F S2048x1024 .f32}

/-- In the case t ≡ 31 (mod 32) each list of stored pieces is the update function of what was read. -/
theorem canon1_E :
    let r := kernelRun1_E c i arg3 harg3 arg4 harg4 arg5 harg5 arg6 harg6 arg7 harg7 arg8 harg8 arg9 harg9 arg10 harg10 arg11 harg11 arg12 harg12 hc0 hc1 hc2 hc3 x0 x1 x2 x3 x4 xs0 xs1 xs2 xs3
    View.canon r.2.1 = newM x0 x1 xs0
      ∧ View.canon r.2.2.1 = newL x0 x1 xs0 xs1
      ∧ View.canon r.2.2.2.1 = newA x0 x1 x2 xs0 xs2
      ∧ View.canon r.2.2.2.2.1 = newO x3 (newL x0 x1 xs0 xs1) (newA x0 x1 x2 xs0 xs2) xs3
      ∧ View.canon r.1 = k1_pay5 (newO x3 (newL x0 x1 xs0 xs1) (newA x0 x1 x2 xs0 xs2) xs3) x4 := by
  unfold kernelRun1_E
  dsimp only
  sl_unfold_words
  simp only [View.readAt_eq_ld, harg3.read_unread, harg4.read_unread, harg5.read_unread, harg6.read_unread, harg7.read_unread, harg9.read_unread, harg10.read_unread, harg11.read_unread, harg12.read_unread,
    View.ld_unit_zero (S := S2048x128) pieces_zeros2, View.ld_unit_zero (S := S512x128) pieces_zeros2, View.ld_unit_zero (S := S1024x128) pieces_zeros2, View.ld_unit_zero (S := S1x1024) pieces_zeros2, View.ld_unit_zero (S := S2048x1024) pieces_zeros2,
    ld_slab1_0, ld_slab1_1, ld_slab64_0, ld_slab64_1,
    readCov_slabs1_0, readCov_slabs1_1, readCov_slabs64_0, readCov_slabs64_1, readCov_skip1, readCov_skip64,
    readCov_whole1_0, readCov_whole1_1, readCov_whole64_0, readCov_whole64_1, View.readCov_unit_zero (S := S2048x1024) _ pieces_zeros2]
  refine ⟨?_, ?_, ?_, ?_, ?_⟩
  · rw [canon_slabs1]; rfl
  · rw [canon_slabs1]; rfl
  · rw [canon_slabs64]; rfl
  · rw [View.canon_unit_zero pieces_zeros2]; unfold newO; rw [slab64_newA_0, slab1_newL_0, slab64_newA_1, slab1_newL_1]
  · rw [View.canon_unit_zero pieces_zeros2]; unfold newO; rw [slab64_newA_0, slab1_newL_0, slab64_newA_1, slab1_newL_1]

end E

section A
variable {c : Dev nD} {i : grid1.Coords} {arg3 : Memref sig .tc .vmem S2048x128 .bf16} {harg3 : arg3.IsWhole} {arg4 : Memref sig .tc .vmem S512x128 .bf16} {harg4 : arg4.IsWhole} {arg5 : Memref sig .tc .vmem S512x128 .bf16} {harg5 : arg5.IsWhole} {arg6 : Memref sig .tc .vmem S1024x128 .bf16} {harg6 : arg6.IsWhole} {arg7 : Memref sig .tc .vmem S1x1024 .f32} {harg7 : arg7.IsWhole} {arg8 : Memref sig .tc .vmem S2048x1024 .f32} {harg8 : arg8.IsWhole} {arg9 : Memref sig .tc .vmem S2x2048x1 .f32} {harg9 : arg9.IsWhole} {arg10 : Memref sig .tc .vmem S2x2048x1 .f32} {harg10 : arg10.IsWhole} {arg11 : Memref sig .tc .vmem S2x2048x64 .f32} {harg11 : arg11.IsWhole} {arg12 : Memref sig .tc .vmem S2048x1024 .f32} {harg12 : arg12.IsWhole} {hc0 : cond1_0 i} {hc1 : cond1_1 i} {hc2 : ¬cond1_2 i} {hc3 : ¬cond1_3 i} {x0 : Vec F S2048x128 .bf16} {x1 : Vec F S512x128 .bf16} {x2 : Vec F S512x128 .bf16} {x3 : Vec F S1024x128 .bf16} {x4 : Vec F S1x1024 .f32}

/-- In the case t ≡ 0 (mod 32) each list of stored pieces is the update function of what was read. -/
theorem canon1_A :
    let r := kernelRun1_A c i arg3 harg3 arg4 harg4 arg5 harg5 arg6 harg6 arg7 harg7 arg8 harg8 arg9 harg9 arg10 harg10 arg11 harg11 arg12 harg12 hc0 hc1 hc2 hc3 x0 x1 x2 x3 x4
    View.canon r.2.1 = newM x0 x1 k1_pay7
      ∧ View.canon r.2.2.1 = newL x0 x1 k1_pay7 k1_pay8
      ∧ View.canon r.2.2.2.1 = newA x0 x1 x2 k1_pay7 k1_pay9
      ∧ View.canon r.2.2.2.2.1 = k1_pay6 := by
  unfold kernelRun1_A
  dsimp only
  sl_unfold_words
  simp only [View.readAt_eq_ld, harg3.read_unread, harg4.read_unread, harg5.read_unread, harg6.read_unread, harg7.read_unread, harg9.read_unread, harg10.read_unread, harg11.read_unread, harg12.read_unread,
    View.ld_unit_zero (S := S2048x128) pieces_zeros2, View.ld_unit_zero (S := S512x128) pieces_zeros2, View.ld_unit_zero (S := S1024x128) pieces_zeros2, View.ld_unit_zero (S := S1x1024) pieces_zeros2, View.ld_unit_zero (S := S2048x1024) pieces_zeros2,
    ld_slab1_0, ld_slab1_1, ld_slab64_0, ld_slab64_1,
    readCov_slabs1_0, readCov_slabs1_1, readCov_slabs64_0, readCov_slabs64_1, readCov_skip1, readCov_skip64,
    readCov_whole1_0, readCov_whole1_1, readCov_whole64_0, readCov_whole64_1, View.readCov_unit_zero (S := S2048x1024) _ pieces_zeros2]
  refine ⟨?_, ?_, ?_, ?_⟩
  · rw [canon_slabs1]; rfl
  · rw [canon_slabs1]; rfl
  · rw [canon_slabs64]; rfl
  · rw [View.canon_unit_zero pieces_zeros2]

end A

section D
variable {c : Dev nD} {i : grid1.Coords} {arg3 : Memref sig .tc .vmem S2048x128 .bf16} {harg3 : arg3.IsWhole} {arg4 : Memref sig .tc .vmem S512x128 .bf16} {harg4 : arg4.IsWhole} {arg5 : Memref sig .tc .vmem S512x128 .bf16} {harg5 : arg5.IsWhole} {arg6 : Memref sig .tc .vmem S1024x128 .bf16} {harg6 : arg6.IsWhole} {arg7 : Memref sig .tc .vmem S1x1024 .f32} {harg7 : arg7.IsWhole} {arg8 : Memref sig .tc .vmem S2048x1024 .f32} {harg8 : arg8.IsWhole} {arg9 : Memref sig .tc .vmem S2x2048x1 .f32} {harg9 : arg9.IsWhole} {arg10 : Memref sig .tc .vmem S2x2048x1 .f32} {harg10 : arg10.IsWhole} {arg11 : Memref sig .tc .vmem S2x2048x64 .f32} {harg11 : arg11.IsWhole} {arg12 : Memref sig .tc .vmem S2048x1024 .f32} {harg12 : arg12.IsWhole} {hc0 : ¬cond1_0 i} {hc1 : cond1_1 i} {hc2 : ¬cond1_2 i} {hc3 : ¬cond1_3 i} {x0 : Vec F S2048x128 .bf16} {x1 : Vec F S512x128 .bf16} {x2 : Vec F S512x128 .bf16} {x3 : Vec F S1024x128 .bf16} {x4 : Vec F S1x1024 .f32} {xs3 : Vec F S2048x1024 .f32}

/-- In the case t ≡ 0 (mod 4), not 0 (mod 32) each list of stored pieces is the update function of what was read. -/
theorem canon1_D :
    let r := kernelRun1_D c i arg3 harg3 arg4 harg4 arg5 harg5 arg6 harg6 arg7 harg7 arg8 harg8 arg9 harg9 arg10 harg10 arg11 harg11 arg12 harg12 hc0 hc1 hc2 hc3 x0 x1 x2 x3 x4 xs3
    View.canon r.2.1 = newM x0 x1 k1_pay7
      ∧ View.canon r.2.2.1 = newL x0 x1 k1_pay7 k1_pay8
      ∧ View.canon r.2.2.2.1 = newA x0 x1 x2 k1_pay7 k1_pay9 := by
  unfold kernelRun1_D
  dsimp only
  sl_unfold_words
  simp only [View.readAt_eq_ld, harg3.read_unread, harg4.read_unread, harg5.read_unread, harg6.read_unread, harg7.read_unread, harg9.read_unread, harg10.read_unread, harg11.read_unread, harg12.read_unread,
    View.ld_unit_zero (S := S2048x128) pieces_zeros2, View.ld_unit_zero (S := S512x128) pieces_zeros2, View.ld_unit_zero (S := S1024x128) pieces_zeros2, View.ld_unit_zero (S := S1x1024) pieces_zeros2, View.ld_unit_zero (S := S2048x1024) pieces_zeros2,
    ld_slab1_0, ld_slab1_1, ld_slab64_0, ld_slab64_1,
    readCov_slabs1_0, readCov_slabs1_1, readCov_slabs64_0, readCov_slabs64_1, readCov_skip1, readCov_skip64,
    readCov_whole1_0, readCov_whole1_1, readCov_whole64_0, readCov_whole64_1, View.readCov_unit_zero (S := S2048x1024) _ pieces_zeros2]
  refine ⟨?_, ?_, ?_⟩
  · rw [canon_slabs1]; rfl
  · rw [canon_slabs1]; rfl
  · rw [canon_slabs64]; rfl

end D

section Readback

variable (c : Dev nD) (t : Fin cfg1.N)

section B
variable (h1 : ¬t.val % 4 = 0) (h2 : ¬t.val % 4 = 3) (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32)

theorem sout1_B_0_eq :
    sout1_B_0 c t h1 h2 x0 x1 x2 x3 x4 xs0 xs1 xs2 xs3 = newM x0 x1 xs0 := by
  unfold sout1_B_0
  rw [View.read_writes_eq_canon _ _ _ (scover1_B_0 c t h1 h2 x0 x1 x2 x3 x4 xs0 xs1 xs2 xs3)]
  exact canon1_B.1

theorem sout1_B_1_eq :
    sout1_B_1 c t h1 h2 x0 x1 x2 x3 x4 xs0 xs1 xs2 xs3 = newL x0 x1 xs0 xs1 := by
  unfold sout1_B_1
  rw [View.read_writes_eq_canon _ _ _ (scover1_B_1 c t h1 h2 x0 x1 x2 x3 x4 xs0 xs1 xs2 xs3)]
  exact canon1_B.2.1

theorem sout1_B_2_eq :
    sout1_B_2 c t h1 h2 x0 x1 x2 x3 x4 xs0 xs1 xs2 xs3 = newA x0 x1 x2 xs0 xs2 := by
  unfold sout1_B_2
  rw [View.read_writes_eq_canon _ _ _ (scover1_B_2 c t h1 h2 x0 x1 x2 x3 x4 xs0 xs1 xs2 xs3)]
  exact canon1_B.2.2

end B

section C
variable (h3 : ¬t.val % 32 = 31) (h2 : t.val % 4 = 3) (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32)

theorem sout1_C_0_eq :
    sout1_C_0 c t h3 h2 x0 x1 x2 x3 x4 xs0 xs1 xs2 xs3 = newM x0 x1 xs0 := by
  unfold sout1_C_0
  rw [View.read_writes_eq_canon _ _ _ (scover1_C_0 c t h3 h2 x0 x1 x2 x3 x4 xs0 xs1 xs2 xs3)]
  exact canon1_C.1

theorem sout1_C_1_eq :
    sout1_C_1 c t h3 h2 x0 x1 x2 x3 x4 xs0 xs1 xs2 xs3 = newL x0 x1 xs0 xs1 := by
  unfold sout1_C_1
  rw [View.read_writes_eq_canon _ _ _ (scover1_C_1 c t h3 h2 x0 x1 x2 x3 x4 xs0 xs1 xs2 xs3)]
  exact canon1_C.2.1

theorem sout1_C_2_eq :
    sout1_C_2 c t h3 h2 x0 x1 x2 x3 x4 xs0 xs1 xs2 xs3 = newA x0 x1 x2 xs0 xs2 := by
  unfold sout1_C_2
  rw [View.read_writes_eq_canon _ _ _ (scover1_C_2 c t h3 h2 x0 x1 x2 x3 x4 xs0 xs1 xs2 xs3)]
  exact canon1_C.2.2.1

theorem sout1_C_3_eq :
    sout1_C_3 c t h3 h2 x0 x1 x2 x3 x4 xs0 xs1 xs2 xs3 = newO x3 (newL x0 x1 xs0 xs1) (newA x0 x1 x2 xs0 xs2) xs3 := by
  unfold sout1_C_3
  rw [View.read_writes_eq_canon _ _ _ (scover1_C_3 c t h3 h2 x0 x1 x2 x3 x4 xs0 xs1 xs2 xs3)]
  exact canon1_C.2.2.2

end C

section E
variable (h3 : t.val % 32 = 31) (x0 : Vec F S2048x128 .bf16) (x1 : Vec F S512x128 .bf16) (x2 : Vec F S512x128 .bf16) (x3 : Vec F S1024x128 .bf16) (x4 : Vec F S1x1024 .f32) (xs0 : Vec F S2x2048x1 .f32) (xs1 : Vec F S2x2048x1 .f32) (xs2 : Vec F S2x2048x64 .f32) (xs3 : Vec F S2048x1024 .f32)

theorem sout1_E_0_eq :
    sout1_E_0 c t h3 x0 x1 x2 x3 x4 xs0 xs1 xs2 xs3 = newM x0 x1 xs0 := by
  unfold sout1_E_0
  rw [View.read_writes_eq_canon _ _ _ (scover1_E_0 c t h3 x0 x1 x2 x3 x4 xs0 xs1 xs2 xs3)]
  exact canon1_E.1

theorem sout1_E_1_eq :
    sout1_E_1 c t h3 x0 x1 x2 x3 x4 xs0 xs1 xs2 xs3 = newL x0 x1 xs0 xs1 := by
  unfold sout1_E_1
  rw [View.read_writes_eq_canon _ _ _ (scover1_E_1 c t h3 x0 x1 x2 x3 x4 xs0 xs1 xs2 xs3)]
  exact canon1_E.2.1

theorem sout1_E_2_eq :
    sout1_E_2 c t h3 x0 x1 x2 x3 x4 xs0 xs1 xs2 xs3 = newA x0 x1 x2 xs0 xs2 := by
  unfold sout1_E_2
  rw [View.read_writes_eq_canon _ _ _ (scover1_E_2 c t h3 x0 x1 x2 x3 x4 xs0 xs1 xs2 xs3)]
  exact canon1_E.2.2.1

theorem sout1_E_3_eq :
    sout1_E_3 c t h3 x0 x1 x2 x3 x4 xs0 xs1 xs2 xs3 = newO x3 (newL x0 x1 xs0 xs1) (newA x0 x1 x2 xs0 xs2) xs3 := by
  unfold sout1_E_3
  rw [View.read_writes_eq_canon _ _ _ (scover1_E_3 c t h3 x0 x1 x2 x3 x4 xs0 xs1 xs2 xs3)]
  exact canon1_E.2.2.2.1

theorem out1_E_5_eq :
    out1_E_5 c t h3 x0 x1 x2 x3 x4 xs0 xs1 xs2 xs3 = k1_pay5 (newO x3 (newL x0 x1 xs0 xs1) (newA x0 x1 x2 xs0 xs2) xs3) x4 := by
  unfold out1_E_5
  rw [View.read_writes_eq_canon _ _ _ (cover1_E_5 c t h3 x0 x1 x2 x3 x4 xs0 xs1 xs2 xs3)]
  exact canon1_E.2.2.2.2

end E

section A
variable (h0 : t.val % 32 = 0) (x0 : Vec F S2048x128 .bf16) (x1 : Vec F S512x128 .bf16) (x2 : Vec F S512x128 .bf16) (x3 : Vec F S1024x128 .bf16) (x4 : Vec F S1x1024 .f32)

theorem sout1_A_0_eq :
    sout1_A_0 c t h0 x0 x1 x2 x3 x4 = newM x0 x1 k1_pay7 := by
  unfold sout1_A_0
  rw [View.read_writes_eq_canon _ _ _ (scover1_A_0 c t h0 x0 x1 x2 x3 x4)]
  exact canon1_A.1

theorem sout1_A_1_eq :
    sout1_A_1 c t h0 x0 x1 x2 x3 x4 = newL x0 x1 k1_pay7 k1_pay8 := by
  unfold sout1_A_1
  rw [View.read_writes_eq_canon _ _ _ (scover1_A_1 c t h0 x0 x1 x2 x3 x4)]
  exact canon1_A.2.1

theorem sout1_A_2_eq :
    sout1_A_2 c t h0 x0 x1 x2 x3 x4 = newA x0 x1 x2 k1_pay7 k1_pay9 := by
  unfold sout1_A_2
  rw [View.read_writes_eq_canon _ _ _ (scover1_A_2 c t h0 x0 x1 x2 x3 x4)]
  exact canon1_A.2.2.1

theorem sout1_A_3_eq :
    sout1_A_3 c t h0 x0 x1 x2 x3 x4 = k1_pay6 := by
  unfold sout1_A_3
  rw [View.read_writes_eq_canon _ _ _ (scover1_A_3 c t h0 x0 x1 x2 x3 x4)]
  exact canon1_A.2.2.2

end A

section D
variable (h0 : ¬t.val % 32 = 0) (h1 : t.val % 4 = 0) (x0 : Vec F S2048x128 .bf16) (x1 : Vec F S512x128 .bf16) (x2 : Vec F S512x128 .bf16) (x3 : Vec F S1024x128 .bf16) (x4 : Vec F S1x1024 .f32) (xs3 : Vec F S2048x1024 .f32)

theorem sout1_D_0_eq :
    sout1_D_0 c t h0 h1 x0 x1 x2 x3 x4 xs3 = newM x0 x1 k1_pay7 := by
  unfold sout1_D_0
  rw [View.read_writes_eq_canon _ _ _ (scover1_D_0 c t h0 h1 x0 x1 x2 x3 x4 xs3)]
  exact canon1_D.1

theorem sout1_D_1_eq :
    sout1_D_1 c t h0 h1 x0 x1 x2 x3 x4 xs3 = newL x0 x1 k1_pay7 k1_pay8 := by
  unfold sout1_D_1
  rw [View.read_writes_eq_canon _ _ _ (scover1_D_1 c t h0 h1 x0 x1 x2 x3 x4 xs3)]
  exact canon1_D.2.1

theorem sout1_D_2_eq :
    sout1_D_2 c t h0 h1 x0 x1 x2 x3 x4 xs3 = newA x0 x1 x2 k1_pay7 k1_pay9 := by
  unfold sout1_D_2
  rw [View.read_writes_eq_canon _ _ _ (scover1_D_2 c t h0 h1 x0 x1 x2 x3 x4 xs3)]
  exact canon1_D.2.2

end D

end Readback

section Steps
variable (V : (c : Dev nD) → (b : Ref sig .tc) → Buf (Elt F) ((c : Thread nD τ).loc b))

theorem outsAt1_step_A (c : Dev nD) (t : Fin cfg1.N) (h0 : t.val % 32 = 0) :
    (outsAt1 V c t.val t.isLt).2 = (newM (iblk1 V c 0 t) (iblk1 V c 1 t) k1_pay7, newL (iblk1 V c 0 t) (iblk1 V c 1 t) k1_pay7 k1_pay8, newA (iblk1 V c 0 t) (iblk1 V c 1 t) (iblk1 V c 2 t) k1_pay7 k1_pay9, k1_pay6) := by
  rw [outsAt1_A V c t h0]
  dsimp only
  exact congrArg₂ Prod.mk (sout1_A_0_eq c t h0 (iblk1 V c 0 t) (iblk1 V c 1 t) (iblk1 V c 2 t) (iblk1 V c 3 t) (iblk1 V c 4 t))
    (congrArg₂ Prod.mk (sout1_A_1_eq c t h0 (iblk1 V c 0 t) (iblk1 V c 1 t) (iblk1 V c 2 t) (iblk1 V c 3 t) (iblk1 V c 4 t))
      (congrArg₂ Prod.mk (sout1_A_2_eq c t h0 (iblk1 V c 0 t) (iblk1 V c 1 t) (iblk1 V c 2 t) (iblk1 V c 3 t) (iblk1 V c 4 t))
        (sout1_A_3_eq c t h0 (iblk1 V c 0 t) (iblk1 V c 1 t) (iblk1 V c 2 t) (iblk1 V c 3 t) (iblk1 V c 4 t))))

theorem outsAt1_step_D (c : Dev nD) (t : Fin cfg1.N) (h0 : ¬t.val % 32 = 0) (h1 : t.val % 4 = 0) :
    (outsAt1 V c t.val t.isLt).2 = (newM (iblk1 V c 0 t) (iblk1 V c 1 t) k1_pay7, newL (iblk1 V c 0 t) (iblk1 V c 1 t) k1_pay7 k1_pay8, newA (iblk1 V c 0 t) (iblk1 V c 1 t) (iblk1 V c 2 t) k1_pay7 k1_pay9, (outsAt1 V c (t.val - 1) (Nat.lt_of_le_of_lt (Nat.sub_le _ _) t.isLt)).2.2.2.2) := by
  rw [outsAt1_D V c t h0 h1]
  dsimp only
  exact congrArg₂ Prod.mk (sout1_D_0_eq c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2)
    (congrArg₂ Prod.mk (sout1_D_1_eq c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2)
      (congrArg₂ Prod.mk (sout1_D_2_eq c t h0 h1 (iblk1 V c 0 t) (iblk1 V c 1 t) (iblk1 V c 2 t) (iblk1 V c 3 t) (iblk1 V c 4 t) (outsAt1 V c (t.val - 1) (Nat.lt_of_le_of_lt (Nat.sub_le _ _) t.isLt)).2.2.2.2) rfl))

theorem outsAt1_step_B (c : Dev nD) (t : Fin cfg1.N) (h1 : ¬t.val % 4 = 0) (h2 : ¬t.val % 4 = 3) :
    (outsAt1 V c t.val t.isLt).2 = (newM (iblk1 V c 0 t) (iblk1 V c 1 t) (outsAt1 V c (t.val - 1) (Nat.lt_of_le_of_lt (Nat.sub_le _ _) t.isLt)).2.1, newL (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1, newA (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2.1, (outsAt1 V c (t.val - 1) (Nat.lt_of_le_of_lt (Nat.sub_le _ _) t.isLt)).2.2.2.2) := by
  rw [outsAt1_B V c t h1 h2]
  dsimp only
  exact congrArg₂ Prod.mk (sout1_B_0_eq c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
    (congrArg₂ Prod.mk (sout1_B_1_eq c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
      (congrArg₂ Prod.mk (sout1_B_2_eq c t h1 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2) rfl))

theorem outsAt1_step_C (c : Dev nD) (t : Fin cfg1.N) (h3 : ¬t.val % 32 = 31) (h2 : t.val % 4 = 3) :
    (outsAt1 V c t.val t.isLt).2 = (newM (iblk1 V c 0 t) (iblk1 V c 1 t) (outsAt1 V c (t.val - 1) (Nat.lt_of_le_of_lt (Nat.sub_le _ _) t.isLt)).2.1, newL (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1, newA (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2.1, newO (iblk1 V c 3 t) (newL (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1) (newA (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2.1) (outsAt1 V c (t.val - 1) (Nat.lt_of_le_of_lt (Nat.sub_le _ _) t.isLt)).2.2.2.2) := by
  rw [outsAt1_C V c t h3 h2]
  dsimp only
  exact congrArg₂ Prod.mk (sout1_C_0_eq c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
    (congrArg₂ Prod.mk (sout1_C_1_eq c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
      (congrArg₂ Prod.mk (sout1_C_2_eq c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
        (sout1_C_3_eq c t h3 h2 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)))

theorem outsAt1_step_E (c : Dev nD) (t : Fin cfg1.N) (h3 : t.val % 32 = 31) :
    outsAt1 V c t.val t.isLt = (k1_pay5 (newO (iblk1 V c 3 t) (newL (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1) (newA (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2.1) (outsAt1 V c (t.val - 1) (Nat.lt_of_le_of_lt (Nat.sub_le _ _) t.isLt)).2.2.2.2) (iblk1 V c 4 t), newM (iblk1 V c 0 t) (iblk1 V c 1 t) (outsAt1 V c (t.val - 1) (Nat.lt_of_le_of_lt (Nat.sub_le _ _) t.isLt)).2.1, newL (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1, newA (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2.1, newO (iblk1 V c 3 t) (newL (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2.1) (newA (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.2.1) (outsAt1 V c (t.val - 1) (Nat.lt_of_le_of_lt (Nat.sub_le _ _) t.isLt)).2.2.2.2) := by
  rw [outsAt1_E V c t h3]
  exact congrArg₂ Prod.mk (out1_E_5_eq c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
    (congrArg₂ Prod.mk (sout1_E_0_eq c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
      (congrArg₂ Prod.mk (sout1_E_1_eq c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
        (congrArg₂ Prod.mk (sout1_E_2_eq c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2)
          (sout1_E_3_eq c t h3 (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2))))

end Steps

end Cert.KernelIdeal.Hand

end
-- ==== Proof.KI.R1Payloads.lean ====
import proofs.«413035_j60224031424684_3_alg».proof.Proof.Gen.KernelIdeal.Skeleton
import proofs.«413035_j60224031424684_3_alg».proof.Proof.Spec
import Idealize.ShloMosaic.Lib.ValueIdx
import Idealize.ShloMosaic.Lib.Pipeline.Value
import Idealize.ShloMosaic.Lib.ValueLayout
import Idealize.ShloMosaic.PureOps.Ideal.Laws
import Mathlib.Order.CompleteLattice.Finset
import Mathlib.Algebra.BigOperators.Fin

open scoped BigOperators

noncomputable section

namespace Cert.KernelIdeal.Val

open Cert.KernelIdeal Cert.KernelIdeal.Gen Idealize.ShloMosaic Idealize.ShloMosaic.ValueIdx Cert.Spec

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

theorem lhs_sc_0 (i : S2048x512.Idx) (q : dot_S2048x64_S512x64_S2048x512_1_1_0_0_n_n.contr.Idx) :
    (dot_S2048x64_S512x64_S2048x512_1_1_0_0_n_n.lhsIdx i q 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem lhs_sc_1 (i : S2048x512.Idx) (q : dot_S2048x64_S512x64_S2048x512_1_1_0_0_n_n.contr.Idx) :
    (dot_S2048x64_S512x64_S2048x512_1_1_0_0_n_n.lhsIdx i q 1).val = (q ⟨0, by decide⟩).val :=
  dot_S2048x64_S512x64_S2048x512_1_1_0_0_n_n.lhsIdx_val_of_single rfl i q
theorem rhs_sc_0 (i : S2048x512.Idx) (q : dot_S2048x64_S512x64_S2048x512_1_1_0_0_n_n.contr.Idx) :
    (dot_S2048x64_S512x64_S2048x512_1_1_0_0_n_n.rhsIdx i q 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem rhs_sc_1 (i : S2048x512.Idx) (q : dot_S2048x64_S512x64_S2048x512_1_1_0_0_n_n.contr.Idx) :
    (dot_S2048x64_S512x64_S2048x512_1_1_0_0_n_n.rhsIdx i q 1).val = (q ⟨0, by decide⟩).val :=
  dot_S2048x64_S512x64_S2048x512_1_1_0_0_n_n.rhsIdx_val_of_single rfl i q

theorem matmul_scores_apply (A : FVec Ideal S2048x64 .bf16) (B : FVec Ideal S512x64 .bf16) (r : Fin 2048) (kk : Fin 512) :
    matmul dot_S2048x64_S512x64_S2048x512_1_1_0_0_n_n none A B (constant (F := Ideal) S2048x512 .f32 0x00000000#32) (ix2 r kk)
      = ∑ d : Fin 64, A (ix2 r d) * B (ix2 kk d) := by
  refine (Ideal.matmul_constant_zero_apply dot_S2048x64_S512x64_S2048x512_1_1_0_0_n_n none A B (ix2 r kk)).trans ?_
  rw [← Equiv.sum_comp (contrEquiv1 dot_S2048x64_S512x64_S2048x512_1_1_0_0_n_n 64 rfl rfl).symm]
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 r kk) ((contrEquiv1 dot_S2048x64_S512x64_S2048x512_1_1_0_0_n_n 64 rfl rfl).symm k) = ix2 r k := funext fun a => Fin.ext (by
    match a with
    | ⟨0, _⟩ => exact lhs_sc_0 _ _
    | ⟨1, _⟩ => exact (lhs_sc_1 _ _).trans hk)
  have er : dot_S2048x64_S512x64_S2048x512_1_1_0_0_n_n.rhsIdx (ix2 r kk) ((contrEquiv1 dot_S2048x64_S512x64_S2048x512_1_1_0_0_n_n 64 rfl rfl).symm k) = ix2 kk k := funext fun a => Fin.ext (by
    match a with
    | ⟨0, _⟩ => exact rhs_sc_0 _ _
    | ⟨1, _⟩ => exact (rhs_sc_1 _ _).trans hk)
  rw [el, er]

theorem lhs_pv_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem lhs_pv_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem rhs_pv_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem rhs_pv_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

theorem matmul_pv_apply (A : FVec Ideal S2048x512 .bf16) (B : FVec Ideal S512x64 .bf16) (r : Fin 2048) (d : Fin 64) :
    matmul dot_S2048x512_S512x64_S2048x64_1_0_0_1_n_n none A B (constant (F := Ideal) S2048x64 .f32 0x00000000#32) (ix2 r d)
      = ∑ kk : Fin 512, A (ix2 r kk) * B (ix2 kk d) := by
  refine (Ideal.matmul_constant_zero_apply dot_S2048x512_S512x64_S2048x64_1_0_0_1_n_n none A B (ix2 r d)).trans ?_
  rw [← Equiv.sum_comp (contrEquiv1 dot_S2048x512_S512x64_S2048x64_1_0_0_1_n_n 512 rfl rfl).symm]
  refine Finset.sum_congr rfl fun k _ => ?_
  have hk := contrEquiv1_symm_val dot_S2048x512_S512x64_S2048x64_1_0_0_1_n_n 512 rfl rfl k
  have el : dot_S2048x512_S512x64_S2048x64_1_0_0_1_n_n.lhsIdx (ix2 r d) ((contrEquiv1 dot_S2048x512_S512x64_S2048x64_1_0_0_1_n_n 512 rfl rfl).symm k) = ix2 r k := funext fun a => Fin.ext (by
    match a with
    | ⟨0, _⟩ => exact lhs_pv_0 _ _
    | ⟨1, _⟩ => exact (lhs_pv_1 _ _).trans hk)
  have er : dot_S2048x512_S512x64_S2048x64_1_0_0_1_n_n.rhsIdx (ix2 r d) ((contrEquiv1 dot_S2048x512_S512x64_S2048x64_1_0_0_1_n_n 512 rfl rfl).symm k) = ix2 k d := funext fun a => Fin.ext (by
    match a with
    | ⟨0, _⟩ => exact (rhs_pv_0 _ _).trans hk
    | ⟨1, _⟩ => exact rhs_pv_1 _ _)
  rw [el, er]

theorem lhs_op_0 (i : S2048x1024.Idx) (q : dot_S2048x128_S1024x128_S2048x1024_1_1_0_0_n_n.contr.Idx) :
    (dot_S2048x128_S1024x128_S2048x1024_1_1_0_0_n_n.lhsIdx i q 0).val = (i 0).val := by
  unfold DotDims.lhsIdx
  rw [dif_neg (show ¬(0 : Fin S2048x128.rank) ∈ dot_S2048x128_S1024x128_S2048x1024_1_1_0_0_n_n.lhsBatch by decide), dif_pos (show (0 : Fin S2048x128.rank) ∈ dot_S2048x128_S1024x128_S2048x1024_1_1_0_0_n_n.lhsNonContracting by decide)]
  rfl
theorem lhs_op_1 (i : S2048x1024.Idx) (q : dot_S2048x128_S1024x128_S2048x1024_1_1_0_0_n_n.contr.Idx) :
    (dot_S2048x128_S1024x128_S2048x1024_1_1_0_0_n_n.lhsIdx i q 1).val = (q ⟨0, by decide⟩).val :=
  dot_S2048x128_S1024x128_S2048x1024_1_1_0_0_n_n.lhsIdx_val_of_single rfl i q
theorem rhs_op_0 (i : S2048x1024.Idx) (q : dot_S2048x128_S1024x128_S2048x1024_1_1_0_0_n_n.contr.Idx) :
    (dot_S2048x128_S1024x128_S2048x1024_1_1_0_0_n_n.rhsIdx i q 0).val = (i 1).val := by
  unfold DotDims.rhsIdx
  rw [dif_neg (show ¬(0 : Fin S1024x128.rank) ∈ dot_S2048x128_S1024x128_S2048x1024_1_1_0_0_n_n.rhsBatch by decide), dif_pos (show (0 : Fin S1024x128.rank) ∈ dot_S2048x128_S1024x128_S2048x1024_1_1_0_0_n_n.rhsNonContracting by decide)]
  rfl
theorem rhs_op_1 (i : S2048x1024.Idx) (q : dot_S2048x128_S1024x128_S2048x1024_1_1_0_0_n_n.contr.Idx) :
    (dot_S2048x128_S1024x128_S2048x1024_1_1_0_0_n_n.rhsIdx i q 1).val = (q ⟨0, by decide⟩).val :=
  dot_S2048x128_S1024x128_S2048x1024_1_1_0_0_n_n.rhsIdx_val_of_single rfl i q

theorem matmul_out_apply (A : FVec Ideal S2048x128 .bf16) (B : FVec Ideal S1024x128 .bf16) (r : Fin 2048) (e : Fin 1024) :
    matmul dot_S2048x128_S1024x128_S2048x1024_1_1_0_0_n_n none A B (constant (F := Ideal) S2048x1024 .f32 0x00000000#32) (ix2 r e)
      = ∑ c : Fin 128, A (ix2 r c) * B (ix2 e c) := by
  refine (Ideal.matmul_constant_zero_apply dot_S2048x128_S1024x128_S2048x1024_1_1_0_0_n_n none A B (ix2 r e)).trans ?_
  rw [← Equiv.sum_comp (contrEquiv1 dot_S2048x128_S1024x128_S2048x1024_1_1_0_0_n_n 128 rfl rfl).symm]
  refine Finset.sum_congr rfl fun k _ => ?_
  have hk := contrEquiv1_symm_val dot_S2048x128_S1024x128_S2048x1024_1_1_0_0_n_n 128 rfl rfl k
  have el : dot_S2048x128_S1024x128_S2048x1024_1_1_0_0_n_n.lhsIdx (ix2 r e) ((contrEquiv1 dot_S2048x128_S1024x128_S2048x1024_1_1_0_0_n_n 128 rfl rfl).symm k) = ix2 r k := funext fun a => Fin.ext (by
    match a with
    | ⟨0, _⟩ => exact lhs_op_0 _ _
    | ⟨1, _⟩ => exact (lhs_op_1 _ _).trans hk)
  have er : dot_S2048x128_S1024x128_S2048x1024_1_1_0_0_n_n.rhsIdx (ix2 r e) ((contrEquiv1 dot_S2048x128_S1024x128_S2048x1024_1_1_0_0_n_n 128 rfl rfl).symm k) = ix2 e k := funext fun a => Fin.ext (by
    match a with
    | ⟨0, _⟩ => exact rhs_op_0 _ _
    | ⟨1, _⟩ => exact (rhs_op_1 _ _).trans hk)
  rw [el, er]

theorem ofBits_neg_inf : Ideal.ofBits .f32 0xFF800000#32 = (⊥ : EReal) := by
  simp [Ideal.ofBits, Ideal.ieee]

theorem rowMax_apply (v : FVec Ideal S2048x512 .f32) (h : S2048x512.Reduces [1] S2048) (hφ : FKind.Formats .f32)
    (hacc : (0xFF800000#32 : BitVec 32) = FKind.maximumf.neutral .f32 hφ) (r : Fin 2048) :
    multiReduction (F := Ideal) .maximumf [1] S2048 v 0xFF800000#32 h hφ hacc (ix1 r)
      = Finset.univ.sup (fun kk : Fin 512 => v (ix2 r kk)) := by
  refine (Ideal.multiReduction_maximumf_single v 0xFF800000#32 h hφ hacc (ix1 r)).trans ?_
  have e1 : FloatOps.ofBits (F := Ideal) .f32 0xFF800000#32 = (⊥ : EReal) := ofBits_neg_inf
  have e2 : (v ∘ h.lift (ix1 r)) = fun kk : Fin 512 => v (ix2 r kk) := funext fun k => congrArg v (funext fun a => Fin.ext (by
    match a with
    | ⟨0, _⟩ => rfl
    | ⟨1, _⟩ => rfl))
  rw [e1, e2]
  rfl

theorem rowSum_apply (v : FVec Ideal S2048x512 .f32) (h : S2048x512.Reduces [1] S2048) (hφ : FKind.Formats .f32)
    (hacc : (0x00000000#32 : BitVec 32) = FKind.add.neutral .f32 hφ) (r : Fin 2048) :
    multiReduction (F := Ideal) .add [1] S2048 v 0x00000000#32 h hφ hacc (ix1 r) = ∑ kk : Fin 512, v (ix2 r kk) :=
  (Ideal.multiReduction_add_single v 0x00000000#32 h hφ hacc (ix1 r)).trans (Finset.sum_congr rfl fun k _ => congrArg v (funext fun a => Fin.ext (by
    match a with
    | ⟨0, _⟩ => rfl
    | ⟨1, _⟩ => rfl)))

def sc0 (x0 : Vec Ideal S2048x128 .bf16) (x1 : Vec Ideal S512x128 .bf16) (r : Fin 2048) : Fin 512 → EReal :=
  fun kk => (∑ d : Fin 64, x0 (ix2 r ⟨d.val, by omega⟩) * x1 (ix2 kk ⟨d.val, by omega⟩)) * Spec.scale

def sc1 (x0 : Vec Ideal S2048x128 .bf16) (x1 : Vec Ideal S512x128 .bf16) (r : Fin 2048) : Fin 512 → EReal :=
  fun kk => (∑ d : Fin 64, x0 (ix2 r ⟨64 + d.val, by omega⟩) * x1 (ix2 kk ⟨64 + d.val, by omega⟩)) * Spec.scale

def vl0 (x2 : Vec Ideal S512x128 .bf16) : Fin 512 → Fin 64 → EReal := fun kk d => x2 (ix2 kk ⟨d.val, by omega⟩)

def vl1 (x2 : Vec Ideal S512x128 .bf16) : Fin 512 → Fin 64 → EReal := fun kk d => x2 (ix2 kk ⟨64 + d.val, by omega⟩)

def st0 (M L : Vec Ideal S1x2048x1 .f32) (A : Vec Ideal S1x2048x64 .f32) (r : Fin 2048) : OState :=
  ⟨M (ix3 0 r 0), L (ix3 0 r 0), fun d => A (ix3 0 r d)⟩

theorem pay14_apply (x0 : Vec Ideal S2048x128 .bf16) (x1 : Vec Ideal S512x128 .bf16) (r : Fin 2048) (kk : Fin 512) :
    k1_pay14 (F := Ideal) x0 x1 (ix2 r kk) = sc0 x0 x1 r kk := by
  unfold k1_pay14 k1_pay10 k1_pay11 sc0
  dsimp only
  rw [shapeCast_self, shapeCast_self]
  rw [mulf_apply, broadcast_apply, matmul_scores_apply]
  refine congrArg₂ (· * ·) (Finset.sum_congr rfl fun d _ => ?_) rfl
  rw [slice2_axis1_apply 0 x0 _ r d ⟨d.val, by omega⟩ (by simp), slice2_axis1_apply 0 x1 _ kk d ⟨d.val, by omega⟩ (by simp)]

theorem pay25_apply (v9 : FVec Ideal S2048x128 .bf16) (v11 : FVec Ideal S512x128 .bf16) (r : Fin 2048) (kk : Fin 512) :
    k1_pay25 (F := Ideal) v9 v11 (ix2 r kk)
      = (∑ d : Fin 64, v9 (ix2 r ⟨64 + d.val, by omega⟩) * v11 (ix2 kk ⟨64 + d.val, by omega⟩)) * Spec.scale := by
  unfold k1_pay25
  rw [mulf_apply, broadcast_apply, matmul_scores_apply]
  refine congrArg₂ (· * ·) (Finset.sum_congr rfl fun d _ => ?_) rfl
  rw [slice2_axis1_apply 64 v9 _ r d ⟨64 + d.val, by omega⟩ rfl, slice2_axis1_apply 64 v11 _ kk d ⟨64 + d.val, by omega⟩ rfl]

theorem pay10_eq (x0 : Vec Ideal S2048x128 .bf16) : k1_pay10 (F := Ideal) x0 = x0 := by
  unfold k1_pay10; exact shapeCast_self _ _
theorem pay11_eq (x1 : Vec Ideal S512x128 .bf16) : k1_pay11 (F := Ideal) x1 = x1 := by
  unfold k1_pay11; exact shapeCast_self _ _
theorem pay12_eq (x2 : Vec Ideal S512x128 .bf16) : k1_pay12 (F := Ideal) x2 = x2 := by
  unfold k1_pay12; exact shapeCast_self _ _

theorem pay25_apply' (x0 : Vec Ideal S2048x128 .bf16) (x1 : Vec Ideal S512x128 .bf16) (r : Fin 2048) (kk : Fin 512) :
    k1_pay25 (F := Ideal) (k1_pay10 x0) (k1_pay11 x1) (ix2 r kk) = sc1 x0 x1 r kk := by
  rw [pay10_eq, pay11_eq]; exact pay25_apply x0 x1 r kk

theorem pay13_apply (x2 : Vec Ideal S512x128 .bf16) (kk : Fin 512) (d : Fin 64) :
    k1_pay13 (F := Ideal) x2 (ix2 kk d) = vl0 x2 kk d := by
  unfold k1_pay13 vl0
  rw [pay12_eq]
  exact slice2_axis1_apply 0 x2 _ kk d ⟨d.val, by omega⟩ (by simp)

theorem pay24_apply (x2 : Vec Ideal S512x128 .bf16) (kk : Fin 512) (d : Fin 64) :
    k1_pay24 (F := Ideal) (k1_pay12 x2) (ix2 kk d) = vl1 x2 kk d := by
  unfold k1_pay24 vl1
  rw [pay12_eq]
  exact slice2_axis1_apply 64 x2 _ kk d ⟨64 + d.val, by omega⟩ rfl

theorem pay15_apply (v20 : Vec Ideal S1x2048x1 .f32) (r : Fin 2048) (u : Fin 1) :
    k1_pay15 (F := Ideal) v20 (ix2 r u) = v20 (ix3 0 r u) := by
  unfold k1_pay15
  exact shapeCast_1ab_ab_apply v20 _ r u

theorem pay26_apply (v58 : Vec Ideal S1x2048x1 .f32) (r : Fin 2048) (u : Fin 1) :
    k1_pay26 (F := Ideal) v58 (ix2 r u) = v58 (ix3 0 r u) := by
  unfold k1_pay26
  exact shapeCast_1ab_ab_apply v58 _ r u

theorem pay16_apply (x0 : Vec Ideal S2048x128 .bf16) (x1 : Vec Ideal S512x128 .bf16) (v20 : Vec Ideal S1x2048x1 .f32) (r : Fin 2048) :
    k1_pay16 (F := Ideal) x0 x1 v20 (ix2 r 0) = max (v20 (ix3 0 r 0)) (Finset.univ.sup (sc0 x0 x1 r)) := by
  unfold k1_pay16
  rw [maximumf_apply, pay15_apply, shapeCast_a_a1_apply]
  refine congrArg (max _) ((rowMax_apply _ _ _ _ r).trans ?_)
  exact congrArg (Finset.sup Finset.univ) (funext fun kk => pay14_apply x0 x1 r kk)

theorem pay27_apply (x0 : Vec Ideal S2048x128 .bf16) (x1 : Vec Ideal S512x128 .bf16) (v58 : Vec Ideal S1x2048x1 .f32) (r : Fin 2048) :
    k1_pay27 (F := Ideal) (k1_pay10 x0) (k1_pay11 x1) v58 (ix2 r 0) = max (v58 (ix3 0 r 0)) (Finset.univ.sup (sc1 x0 x1 r)) := by
  unfold k1_pay27
  rw [maximumf_apply, pay26_apply, shapeCast_a_a1_apply]
  refine congrArg (max _) ((rowMax_apply _ _ _ _ r).trans ?_)
  exact congrArg (Finset.sup Finset.univ) (funext fun kk => pay25_apply' x0 x1 r kk)

theorem pay17_apply (x0 : Vec Ideal S2048x128 .bf16) (x1 : Vec Ideal S512x128 .bf16) (v20 : Vec Ideal S1x2048x1 .f32) (r : Fin 2048) :
    k1_pay17 (F := Ideal) x0 x1 v20 (ix2 r 0)
      = Ideal.exp (v20 (ix3 0 r 0) - max (v20 (ix3 0 r 0)) (Finset.univ.sup (sc0 x0 x1 r))) := by
  unfold k1_pay17
  show Ideal.exp (k1_pay15 (F := Ideal) v20 (ix2 r 0) - k1_pay16 (F := Ideal) x0 x1 v20 (ix2 r 0)) = _
  rw [pay15_apply, pay16_apply]

theorem pay28_apply (x0 : Vec Ideal S2048x128 .bf16) (x1 : Vec Ideal S512x128 .bf16) (v58 : Vec Ideal S1x2048x1 .f32) (r : Fin 2048) :
    k1_pay28 (F := Ideal) (k1_pay10 x0) (k1_pay11 x1) v58 (ix2 r 0)
      = Ideal.exp (v58 (ix3 0 r 0) - max (v58 (ix3 0 r 0)) (Finset.univ.sup (sc1 x0 x1 r))) := by
  unfold k1_pay28
  show Ideal.exp (k1_pay26 (F := Ideal) v58 (ix2 r 0) - k1_pay27 (F := Ideal) (k1_pay10 x0) (k1_pay11 x1) v58 (ix2 r 0)) = _
  rw [pay26_apply, pay27_apply]

theorem pay18_apply (x0 : Vec Ideal S2048x128 .bf16) (x1 : Vec Ideal S512x128 .bf16) (v20 : Vec Ideal S1x2048x1 .f32) (r : Fin 2048) (kk : Fin 512) :
    k1_pay18 (F := Ideal) x0 x1 v20 (ix2 r kk)
      = Ideal.exp (sc0 x0 x1 r kk - max (v20 (ix3 0 r 0)) (Finset.univ.sup (sc0 x0 x1 r))) := by
  unfold k1_pay18
  show Ideal.exp (k1_pay14 (F := Ideal) x0 x1 (ix2 r kk) - broadcastTo S2048x512 (k1_pay16 (F := Ideal) x0 x1 v20) broadcasts_S2048x1_S2048x512 (ix2 r kk)) = _
  rw [pay14_apply, broadcastTo_a1_ab_apply, pay16_apply]

theorem pay29_apply (x0 : Vec Ideal S2048x128 .bf16) (x1 : Vec Ideal S512x128 .bf16) (v58 : Vec Ideal S1x2048x1 .f32) (r : Fin 2048) (kk : Fin 512) :
    k1_pay29 (F := Ideal) (k1_pay10 x0) (k1_pay11 x1) v58 (ix2 r kk)
      = Ideal.exp (sc1 x0 x1 r kk - max (v58 (ix3 0 r 0)) (Finset.univ.sup (sc1 x0 x1 r))) := by
  unfold k1_pay29
  show Ideal.exp (k1_pay25 (F := Ideal) (k1_pay10 x0) (k1_pay11 x1) (ix2 r kk) - broadcastTo S2048x512 (k1_pay27 (F := Ideal) (k1_pay10 x0) (k1_pay11 x1) v58) broadcasts_S2048x1_S2048x512 (ix2 r kk)) = _
  rw [pay25_apply', broadcastTo_a1_ab_apply, pay27_apply]

theorem pay19_apply (x0 : Vec Ideal S2048x128 .bf16) (x1 : Vec Ideal S512x128 .bf16) (v20 v30 : Vec Ideal S1x2048x1 .f32) (r : Fin 2048) :
    k1_pay19 (F := Ideal) x0 x1 v20 v30 (ix2 r 0)
      = Ideal.exp (v20 (ix3 0 r 0) - max (v20 (ix3 0 r 0)) (Finset.univ.sup (sc0 x0 x1 r))) * v30 (ix3 0 r 0) := by
  unfold k1_pay19
  rw [mulf_apply, pay17_apply, shapeCast_1ab_ab_apply]

theorem pay20_apply (x0 : Vec Ideal S2048x128 .bf16) (x1 : Vec Ideal S512x128 .bf16) (v20 : Vec Ideal S1x2048x1 .f32) (r : Fin 2048) :
    k1_pay20 (F := Ideal) x0 x1 v20 (ix1 r)
      = ∑ kk : Fin 512, Ideal.exp (sc0 x0 x1 r kk - max (v20 (ix3 0 r 0)) (Finset.univ.sup (sc0 x0 x1 r))) := by
  unfold k1_pay20
  refine (rowSum_apply _ _ _ _ r).trans ?_
  exact Finset.sum_congr rfl fun kk _ => pay18_apply x0 x1 v20 r kk

theorem pay21_apply (v32 : FVec Ideal S2048x1 .f32) (v33 : FVec Ideal S2048 .f32) (r : Fin 2048) :
    k1_pay21 (F := Ideal) v32 v33 (ix3 0 r 0) = v32 (ix2 r 0) + v33 (ix1 r) := by
  unfold k1_pay21
  rw [shapeCast_ab_1ab_apply, addf_apply, shapeCast_a_a1_apply]

theorem pay22_apply (v16 : FVec Ideal S512x64 .bf16) (v26 : FVec Ideal S2048x1 .f32) (v29 : FVec Ideal S2048x512 .f32)
    (v39 : Vec Ideal S1x2048x64 .f32) (r : Fin 2048) (d : Fin 64) :
    k1_pay22 (F := Ideal) v16 v26 v29 v39 (ix3 0 r d)
      = v26 (ix2 r 0) * v39 (ix3 0 r d) + ∑ kk : Fin 512, v29 (ix2 r kk) * v16 (ix2 kk d) := by
  unfold k1_pay22
  rw [shapeCast_ab_1ab_apply, addf_apply, mulf_apply, broadcastTo_a1_ab_apply, shapeCast_1ab_ab_apply, matmul_pv_apply]
  rfl

theorem pay23_apply (v24 : FVec Ideal S2048x1 .f32) (r : Fin 2048) :
    k1_pay23 (F := Ideal) v24 (ix3 0 r 0) = v24 (ix2 r 0) := by
  unfold k1_pay23
  exact shapeCast_ab_1ab_apply v24 _ 0 r 0

theorem head0_m (x0 : Vec Ideal S2048x128 .bf16) (x1 x2 : Vec Ideal S512x128 .bf16) (v20 v30 : Vec Ideal S1x2048x1 .f32)
    (v39 : Vec Ideal S1x2048x64 .f32) (r : Fin 2048) :
    k1_pay23 (F := Ideal) (k1_pay16 x0 x1 v20) (ix3 0 r 0) = ((st0 v20 v30 v39 r).step (sc0 x0 x1 r) (vl0 x2)).m := by
  rw [pay23_apply, pay16_apply]
  rfl

theorem head0_l (x0 : Vec Ideal S2048x128 .bf16) (x1 x2 : Vec Ideal S512x128 .bf16) (v20 v30 : Vec Ideal S1x2048x1 .f32)
    (v39 : Vec Ideal S1x2048x64 .f32) (r : Fin 2048) :
    k1_pay21 (F := Ideal) (k1_pay19 x0 x1 v20 v30) (k1_pay20 x0 x1 v20) (ix3 0 r 0)
      = ((st0 v20 v30 v39 r).step (sc0 x0 x1 r) (vl0 x2)).l := by
  rw [pay21_apply, pay19_apply, pay20_apply]
  rfl

theorem head0_a (x0 : Vec Ideal S2048x128 .bf16) (x1 x2 : Vec Ideal S512x128 .bf16) (v20 v30 : Vec Ideal S1x2048x1 .f32)
    (v39 : Vec Ideal S1x2048x64 .f32) (r : Fin 2048) (d : Fin 64) :
    k1_pay22 (F := Ideal) (k1_pay13 x2) (k1_pay17 x0 x1 v20) (k1_pay18 x0 x1 v20) v39 (ix3 0 r d)
      = ((st0 v20 v30 v39 r).step (sc0 x0 x1 r) (vl0 x2)).a d := by
  rw [pay22_apply, pay17_apply]
  refine congrArg₂ (· + ·) rfl (Finset.sum_congr rfl fun kk _ => ?_)
  rw [pay18_apply, pay13_apply]
  rfl

theorem pay1_apply (v64 : FVec Ideal S2048x1 .f32) (v67 : FVec Ideal S2048x512 .f32) (v68 : Vec Ideal S1x2048x1 .f32) (r : Fin 2048) :
    k1_pay1 (F := Ideal) v64 v67 v68 (ix3 0 r 0) = v64 (ix2 r 0) * v68 (ix3 0 r 0) + ∑ kk : Fin 512, v67 (ix2 r kk) := by
  unfold k1_pay1
  rw [shapeCast_ab_1ab_apply, addf_apply, mulf_apply, shapeCast_1ab_ab_apply, shapeCast_a_a1_apply]
  exact congrArg (v64 (ix2 r 0) * v68 (ix3 0 r 0) + ·) (rowSum_apply v67 _ _ _ r)

theorem pay2_apply (v54 : FVec Ideal S512x64 .bf16) (v64 : FVec Ideal S2048x1 .f32) (v67 : FVec Ideal S2048x512 .f32)
    (v77 : Vec Ideal S1x2048x64 .f32) (r : Fin 2048) (d : Fin 64) :
    k1_pay2 (F := Ideal) v54 v64 v67 v77 (ix3 0 r d)
      = v64 (ix2 r 0) * v77 (ix3 0 r d) + ∑ kk : Fin 512, v67 (ix2 r kk) * v54 (ix2 kk d) := by
  unfold k1_pay2
  rw [shapeCast_ab_1ab_apply, addf_apply, mulf_apply, broadcastTo_a1_ab_apply, shapeCast_1ab_ab_apply, matmul_pv_apply]
  rfl

theorem pay3_apply (v62 : FVec Ideal S2048x1 .f32) (r : Fin 2048) :
    k1_pay3 (F := Ideal) v62 (ix3 0 r 0) = v62 (ix2 r 0) := by
  unfold k1_pay3
  exact shapeCast_ab_1ab_apply v62 _ 0 r 0

theorem head1_m (x0 : Vec Ideal S2048x128 .bf16) (x1 x2 : Vec Ideal S512x128 .bf16) (v58 v68 : Vec Ideal S1x2048x1 .f32)
    (v77 : Vec Ideal S1x2048x64 .f32) (r : Fin 2048) :
    k1_pay3 (F := Ideal) (k1_pay27 (k1_pay10 x0) (k1_pay11 x1) v58) (ix3 0 r 0)
      = ((st0 v58 v68 v77 r).step (sc1 x0 x1 r) (vl1 x2)).m := by
  rw [pay3_apply, pay27_apply]
  rfl

theorem head1_l (x0 : Vec Ideal S2048x128 .bf16) (x1 x2 : Vec Ideal S512x128 .bf16) (v58 v68 : Vec Ideal S1x2048x1 .f32)
    (v77 : Vec Ideal S1x2048x64 .f32) (r : Fin 2048) :
    k1_pay1 (F := Ideal) (k1_pay28 (k1_pay10 x0) (k1_pay11 x1) v58) (k1_pay29 (k1_pay10 x0) (k1_pay11 x1) v58) v68 (ix3 0 r 0)
      = ((st0 v58 v68 v77 r).step (sc1 x0 x1 r) (vl1 x2)).l := by
  rw [pay1_apply, pay28_apply]
  refine congrArg₂ (· + ·) rfl (Finset.sum_congr rfl fun kk _ => ?_)
  rw [pay29_apply]
  rfl

theorem head1_a (x0 : Vec Ideal S2048x128 .bf16) (x1 x2 : Vec Ideal S512x128 .bf16) (v58 v68 : Vec Ideal S1x2048x1 .f32)
    (v77 : Vec Ideal S1x2048x64 .f32) (r : Fin 2048) (d : Fin 64) :
    k1_pay2 (F := Ideal) (k1_pay24 (k1_pay12 x2)) (k1_pay28 (k1_pay10 x0) (k1_pay11 x1) v58)
        (k1_pay29 (k1_pay10 x0) (k1_pay11 x1) v58) v77 (ix3 0 r d)
      = ((st0 v58 v68 v77 r).step (sc1 x0 x1 r) (vl1 x2)).a d := by
  rw [pay2_apply, pay28_apply]
  refine congrArg₂ (· + ·) rfl (Finset.sum_congr rfl fun kk _ => ?_)
  rw [pay29_apply, pay24_apply]
  rfl

theorem pay4_apply (v98 : Vec Ideal S1x2048x64 .f32) (v100 : Vec Ideal S1x2048x1 .f32) (v104 : Vec Ideal S1x2048x64 .f32)
    (v106 : Vec Ideal S1x2048x1 .f32) (v112 : Vec Ideal S1024x128 .bf16) (v114 : Vec Ideal S2048x1024 .f32)
    (r : Fin 2048) (e : Fin 1024) :
    k1_pay4 (F := Ideal) v98 v100 v104 v106 v112 v114 (ix2 r e)
      = v114 (ix2 r e)
        + ((∑ d : Fin 64, Ideal.div (v98 (ix3 0 r d)) (v100 (ix3 0 r 0)) * v112 (ix2 e ⟨d.val, by omega⟩))
          + ∑ d : Fin 64, Ideal.div (v104 (ix3 0 r d)) (v106 (ix3 0 r 0)) * v112 (ix2 e ⟨64 + d.val, by omega⟩)) := by
  unfold k1_pay4
  rw [shapeCast_self, addf_apply, matmul_out_apply]
  refine congrArg (v114 (ix2 r e) + ·) ?_
  refine (Fin.sum_univ_add (a := 64) (b := 64) _).trans ?_
  refine congrArg₂ (· + ·) (Finset.sum_congr rfl fun d _ => ?_) (Finset.sum_congr rfl fun d _ => ?_)
  · rw [truncf_apply, shapeCast_self]
    rw [concatenate_pair_apply_left (1 : Fin S2048x128.rank) _ _ concatenates_S2048x64_S2048x64_S2048x128_d1
      (ix2 r (Fin.castAdd 64 d)) rfl (ix2 r d) (fun b => match b with | ⟨0, _⟩ => rfl | ⟨1, _⟩ => rfl)]
    rw [divf_apply, shapeCast_1ab_ab_apply, broadcastTo_a1_ab_apply, shapeCast_1ab_ab_apply]
    rfl
  · rw [truncf_apply, shapeCast_self]
    rw [concatenate_pair_apply_right (1 : Fin S2048x128.rank) _ _ concatenates_S2048x64_S2048x64_S2048x128_d1
      (ix2 r (Fin.natAdd 64 d)) rfl rfl (ix2 r d)
      (fun b hb => match b, hb with | ⟨0, _⟩, _ => rfl | ⟨1, _⟩, hb => absurd rfl hb)
      (by show d.val + 64 = 64 + d.val; omega)]
    rw [divf_apply, shapeCast_1ab_ab_apply, broadcastTo_a1_ab_apply, shapeCast_1ab_ab_apply]
    rfl

theorem pay5_apply (v98 : Vec Ideal S2048x1024 .f32) (v99 : Vec Ideal S1x1024 .f32) (r : Fin 2048) (e : Fin 1024) :
    k1_pay5 (F := Ideal) v98 v99 (ix2 r e) = v98 (ix2 r e) + v99 (ix2 0 e) := by
  unfold k1_pay5
  rw [addf_apply, broadcastTo_1b_ab_apply, shapeCast_self]

theorem pay6_apply (i : S2048x1024.Idx) : k1_pay6 (F := Ideal) i = 0 := by
  unfold k1_pay6
  rw [shapeCast_self]
  exact Ideal.ofBits_zero_f32

theorem pay7_apply (i : S2x2048x1.Idx) : k1_pay7 (F := Ideal) i = ⊥ := by
  unfold k1_pay7
  rw [shapeCast_self]
  exact ofBits_neg_inf

theorem pay8_apply (i : S2x2048x1.Idx) : k1_pay8 (F := Ideal) i = 0 := by
  unfold k1_pay8
  rw [shapeCast_self]
  exact Ideal.ofBits_zero_f32

theorem pay9_apply (i : S2x2048x64.Idx) : k1_pay9 (F := Ideal) i = 0 := by
  unfold k1_pay9
  rw [shapeCast_self]
  exact Ideal.ofBits_zero_f32

end Cert.KernelIdeal.Val

end
-- ==== Proof.KI.R1Step.lean ====
import proofs.«413035_j60224031424684_3_alg».proof.Proof.KI.R1StepDefs
import proofs.«413035_j60224031424684_3_alg».proof.Proof.KI.R1Payloads
import proofs.«413035_j60224031424684_3_alg».proof.Proof.KI.R1Blocks
import proofs.«413035_j60224031424684_3_alg».proof.Proof.Spec.Tiled
import Idealize.ShloMosaic.Lib.ValueIdx

open scoped BigOperators

noncomputable section

namespace Cert.KernelIdeal.Val

open Cert.KernelIdeal Cert.KernelIdeal.Gen Cert.KernelIdeal.Hand
open Idealize.ShloMosaic Idealize.ShloMosaic.TcCoe Idealize.ShloMosaic.ValueIdx Cert.Spec

variable (V : (c : Dev nD) → (b : Ref sig .tc) → Buf (Elt Ideal) ((c : Thread nD τ).loc b)) (c : Dev nD) (t : Fin cfg1.N)

abbrev ptBatch (t : Fin cfg1.N) : Fin 4 := ⟨t.val / 32, by have := t.isLt; have hN : cfg1.N = 128 := N_1; omega⟩

abbrev ptGroup (t : Fin cfg1.N) : Fin 8 := ⟨(t.val / 4) % 8, by omega⟩

abbrev ptTile (t : Fin cfg1.N) : ℕ := t.val % 4

abbrev ptHead (t : Fin cfg1.N) (j : Fin 2) : Fin 16 := ⟨2 * ((t.val / 4) % 8) + j.val, by omega⟩

abbrev ptQ : QKV := qkvOf (V c main_v4)

abbrev ptWo : Fin 1024 → Fin 1024 → EReal := mO (V c main_v2)

abbrev qBlk : Vec Ideal S2048x128 .bf16 := iblk1 V c 0 t
abbrev kBlk : Vec Ideal S512x128 .bf16 := iblk1 V c 1 t
abbrev vBlk : Vec Ideal S512x128 .bf16 := iblk1 V c 2 t
abbrev woBlk : Vec Ideal S1024x128 .bf16 := iblk1 V c 3 t
abbrev boBlk : Vec Ideal S1x1024 .f32 := iblk1 V c 4 t

def stOf (M L : Vec Ideal S2x2048x1 .f32) (A : Vec Ideal S2x2048x64 .f32) (j : Fin 2) (r : Fin 2048) : OState :=
  ⟨M (ix3 j r 0), L (ix3 j r 0), fun d => A (ix3 j r d)⟩

theorem qBlk_at (j : Fin 2) (r : Fin 2048) (d : Fin 64) (c' : Fin 128) (hc : c'.val = j.val * 64 + d.val) :
    qBlk V c t (ix2 r c') = ptQ V c (ptBatch t) r (colQ (ptHead t j) d) := by
  refine (blk1_0 V c t r c').trans ?_
  refine congrArg (V c main_v4) (funext fun a => Fin.ext ?_)
  match a with
  | ⟨0, _⟩ => rfl
  | ⟨1, _⟩ => show ((t.val / 4) % 8) * 128 + c'.val = (2 * ((t.val / 4) % 8) + j.val) * 64 + d.val; omega

theorem kBlk_at (j : Fin 2) (p : Fin 512) (d : Fin 64) (c' : Fin 128) (hc : c'.val = j.val * 64 + d.val)
    (hk : ptTile t * 512 + p.val < 2048) :
    kBlk V c t (ix2 p c') = ptQ V c (ptBatch t) ⟨ptTile t * 512 + p.val, hk⟩ (colK (ptHead t j) d) := by
  refine (blk1_1 V c t p c').trans ?_
  refine congrArg (V c main_v4) (funext fun a => Fin.ext ?_)
  match a with
  | ⟨0, _⟩ => show ((t.val / 32) * 4 + t.val % 4) * 512 + p.val = (t.val / 32) * 2048 + (t.val % 4 * 512 + p.val); omega
  | ⟨1, _⟩ => show (8 + (t.val / 4) % 8) * 128 + c'.val = 1024 + ((2 * ((t.val / 4) % 8) + j.val) * 64 + d.val); omega

theorem vBlk_at (j : Fin 2) (p : Fin 512) (d : Fin 64) (c' : Fin 128) (hc : c'.val = j.val * 64 + d.val)
    (hk : ptTile t * 512 + p.val < 2048) :
    vBlk V c t (ix2 p c') = ptQ V c (ptBatch t) ⟨ptTile t * 512 + p.val, hk⟩ (colV (ptHead t j) d) := by
  refine (blk1_2 V c t p c').trans ?_
  refine congrArg (V c main_v4) (funext fun a => Fin.ext ?_)
  match a with
  | ⟨0, _⟩ => show ((t.val / 32) * 4 + t.val % 4) * 512 + p.val = (t.val / 32) * 2048 + (t.val % 4 * 512 + p.val); omega
  | ⟨1, _⟩ => show (16 + (t.val / 4) % 8) * 128 + c'.val = 2048 + ((2 * ((t.val / 4) % 8) + j.val) * 64 + d.val); omega

theorem ptTile_lt : ptTile t < 4 := Nat.mod_lt _ (by decide)

theorem tile_scores0 (r : Fin 2048) :
    sc0 (qBlk V c t) (kBlk V c t) r = sT (ptQ V c) (ptBatch t) (ptHead t 0) r (ptTile t) := by
  funext p
  show (∑ d : Fin 64, qBlk V c t (ix2 r ⟨d.val, _⟩) * kBlk V c t (ix2 p ⟨d.val, _⟩)) * scale
    = if hj : ptTile t < 4 then score (ptQ V c) (ptBatch t) (ptHead t 0) r ⟨ptTile t * 512 + p.val, _⟩ else 0
  rw [dif_pos (ptTile_lt t)]
  refine congrArg (· * scale) (Finset.sum_congr rfl fun d _ => ?_)
  rw [qBlk_at V c t 0 r d _ (by show d.val = 0 * 64 + d.val; omega),
    kBlk_at V c t 0 p d _ (by show d.val = 0 * 64 + d.val; omega) (by have := ptTile_lt t; omega)]

theorem tile_scores1 (r : Fin 2048) :
    sc1 (qBlk V c t) (kBlk V c t) r = sT (ptQ V c) (ptBatch t) (ptHead t 1) r (ptTile t) := by
  funext p
  show (∑ d : Fin 64, qBlk V c t (ix2 r ⟨64 + d.val, _⟩) * kBlk V c t (ix2 p ⟨64 + d.val, _⟩)) * scale
    = if hj : ptTile t < 4 then score (ptQ V c) (ptBatch t) (ptHead t 1) r ⟨ptTile t * 512 + p.val, _⟩ else 0
  rw [dif_pos (ptTile_lt t)]
  refine congrArg (· * scale) (Finset.sum_congr rfl fun d _ => ?_)
  rw [qBlk_at V c t 1 r d _ (by show 64 + d.val = 1 * 64 + d.val; omega),
    kBlk_at V c t 1 p d _ (by show 64 + d.val = 1 * 64 + d.val; omega) (by have := ptTile_lt t; omega)]

theorem tile_values0 : vl0 (vBlk V c t) = vT (ptQ V c) (ptBatch t) (ptHead t 0) (ptTile t) := by
  funext p d
  show vBlk V c t (ix2 p ⟨d.val, _⟩)
    = if hj : ptTile t < 4 then ptQ V c (ptBatch t) ⟨ptTile t * 512 + p.val, _⟩ (colV (ptHead t 0) d) else 0
  rw [dif_pos (ptTile_lt t)]
  exact vBlk_at V c t 0 p d _ (by show d.val = 0 * 64 + d.val; omega) (by have := ptTile_lt t; omega)

theorem tile_values1 : vl1 (vBlk V c t) = vT (ptQ V c) (ptBatch t) (ptHead t 1) (ptTile t) := by
  funext p d
  show vBlk V c t (ix2 p ⟨64 + d.val, _⟩)
    = if hj : ptTile t < 4 then ptQ V c (ptBatch t) ⟨ptTile t * 512 + p.val, _⟩ (colV (ptHead t 1) d) else 0
  rw [dif_pos (ptTile_lt t)]
  exact vBlk_at V c t 1 p d _ (by show 64 + d.val = 1 * 64 + d.val; omega) (by have := ptTile_lt t; omega)

theorem woBlk_at (e : Fin 1024) (c' : Fin 128) :
    woBlk V c t (ix2 e c') = ptWo V c e ⟨(ptGroup t).val * 128 + c'.val, by have := (ptGroup t).isLt; omega⟩ :=
  blk1_3 V c t e c'

section Step
variable (M L : Vec Ideal S2x2048x1 .f32) (A : Vec Ideal S2x2048x64 .f32)

abbrev ptStep (j : Fin 2) (r : Fin 2048) : OState :=
  (stOf M L A j r).step (sT (ptQ V c) (ptBatch t) (ptHead t j) r (ptTile t)) (vT (ptQ V c) (ptBatch t) (ptHead t j) (ptTile t))

theorem newM_at (j : Fin 2) (r : Fin 2048) :
    newM (qBlk V c t) (kBlk V c t) M (ix3 j r 0) = (ptStep V c t M L A j r).m := by
  match j with
  | ⟨0, _⟩ =>
    show k1_pay23 (F := Ideal) (k1_pay16 (qBlk V c t) (kBlk V c t) (slab1 M 0)) (ix3 0 r 0) = _
    refine (head0_m (qBlk V c t) (kBlk V c t) (vBlk V c t) (slab1 M 0) (slab1 L 0) (slab64 A 0) r).trans ?_
    rw [tile_scores0, tile_values0]
    rfl
  | ⟨1, _⟩ =>
    show k1_pay3 (F := Ideal) (k1_pay27 (k1_pay10 (qBlk V c t)) (k1_pay11 (kBlk V c t)) (slab1 M 1)) (ix3 0 r 0) = _
    refine (head1_m (qBlk V c t) (kBlk V c t) (vBlk V c t) (slab1 M 1) (slab1 L 1) (slab64 A 1) r).trans ?_
    rw [tile_scores1, tile_values1]
    rfl

theorem newL_at (j : Fin 2) (r : Fin 2048) :
    newL (qBlk V c t) (kBlk V c t) M L (ix3 j r 0) = (ptStep V c t M L A j r).l := by
  match j with
  | ⟨0, _⟩ =>
    show k1_pay21 (F := Ideal) (k1_pay19 (qBlk V c t) (kBlk V c t) (slab1 M 0) (slab1 L 0)) (k1_pay20 (qBlk V c t) (kBlk V c t) (slab1 M 0)) (ix3 0 r 0) = _
    refine (head0_l (qBlk V c t) (kBlk V c t) (vBlk V c t) (slab1 M 0) (slab1 L 0) (slab64 A 0) r).trans ?_
    rw [tile_scores0, tile_values0]
    rfl
  | ⟨1, _⟩ =>
    show k1_pay1 (F := Ideal) (k1_pay28 (k1_pay10 (qBlk V c t)) (k1_pay11 (kBlk V c t)) (slab1 M 1)) (k1_pay29 (k1_pay10 (qBlk V c t)) (k1_pay11 (kBlk V c t)) (slab1 M 1)) (slab1 L 1) (ix3 0 r 0) = _
    refine (head1_l (qBlk V c t) (kBlk V c t) (vBlk V c t) (slab1 M 1) (slab1 L 1) (slab64 A 1) r).trans ?_
    rw [tile_scores1, tile_values1]
    rfl

theorem newA_at (j : Fin 2) (r : Fin 2048) (d : Fin 64) :
    newA (qBlk V c t) (kBlk V c t) (vBlk V c t) M A (ix3 j r d) = (ptStep V c t M L A j r).a d := by
  match j with
  | ⟨0, _⟩ =>
    show k1_pay22 (F := Ideal) (k1_pay13 (vBlk V c t)) (k1_pay17 (qBlk V c t) (kBlk V c t) (slab1 M 0)) (k1_pay18 (qBlk V c t) (kBlk V c t) (slab1 M 0)) (slab64 A 0) (ix3 0 r d) = _
    refine (head0_a (qBlk V c t) (kBlk V c t) (vBlk V c t) (slab1 M 0) (slab1 L 0) (slab64 A 0) r d).trans ?_
    rw [tile_scores0, tile_values0]
    rfl
  | ⟨1, _⟩ =>
    show k1_pay2 (F := Ideal) (k1_pay24 (k1_pay12 (vBlk V c t))) (k1_pay28 (k1_pay10 (qBlk V c t)) (k1_pay11 (kBlk V c t)) (slab1 M 1)) (k1_pay29 (k1_pay10 (qBlk V c t)) (k1_pay11 (kBlk V c t)) (slab1 M 1)) (slab64 A 1) (ix3 0 r d) = _
    refine (head1_a (qBlk V c t) (kBlk V c t) (vBlk V c t) (slab1 M 1) (slab1 L 1) (slab64 A 1) r d).trans ?_
    rw [tile_scores1, tile_values1]
    rfl

end Step

theorem newO_at (L' : Vec Ideal S2x2048x1 .f32) (A' : Vec Ideal S2x2048x64 .f32) (O : Vec Ideal S2048x1024 .f32)
    (r : Fin 2048) (e : Fin 1024) :
    newO (woBlk V c t) L' A' O (ix2 r e)
      = O (ix2 r e)
        + ((∑ d : Fin 64, Ideal.div (A' (ix3 0 r d)) (L' (ix3 0 r 0))
              * ptWo V c e ⟨(ptGroup t).val * 128 + d.val, by have := (ptGroup t).isLt; omega⟩)
          + ∑ d : Fin 64, Ideal.div (A' (ix3 1 r d)) (L' (ix3 1 r 0))
              * ptWo V c e ⟨(ptGroup t).val * 128 + (64 + d.val), by have := (ptGroup t).isLt; omega⟩) := by
  refine (pay4_apply (slab64 A' 0) (slab1 L' 0) (slab64 A' 1) (slab1 L' 1) (woBlk V c t) O r e).trans ?_
  refine congrArg (fun z : EReal => O (ix2 r e) + z) (congrArg₂ (fun y z : EReal => y + z)
    (Finset.sum_congr rfl fun d _ => ?_) (Finset.sum_congr rfl fun d _ => ?_))
  · exact congrArg (fun z : EReal => Ideal.div (A' (ix3 0 r d)) (L' (ix3 0 r 0)) * z) (woBlk_at V c t e _)
  · exact congrArg (fun z : EReal => Ideal.div (A' (ix3 1 r d)) (L' (ix3 1 r 0)) * z) (woBlk_at V c t e _)

theorem out_at (O' : Vec Ideal S2048x1024 .f32) (r : Fin 2048) (e : Fin 1024) :
    k1_pay5 (F := Ideal) O' (boBlk V c t) (ix2 r e) = O' (ix2 r e) + V c main_v3 (ix2 0 e) :=
  (pay5_apply O' (boBlk V c t) r e).trans (congrArg (fun z : EReal => O' (ix2 r e) + z) (blk1_4 V c t e))

theorem reset_state (j : Fin 2) (r : Fin 2048) :
    stOf (k1_pay7 (F := Ideal)) (k1_pay8 (F := Ideal)) (k1_pay9 (F := Ideal)) j r = OState.init := by
  show OState.mk (k1_pay7 (F := Ideal) (ix3 j r 0)) (k1_pay8 (F := Ideal) (ix3 j r 0)) (fun d => k1_pay9 (F := Ideal) (ix3 j r d))
    = OState.mk ⊥ 0 (fun _ => 0)
  rw [pay7_apply, pay8_apply]
  exact congrArg (OState.mk ⊥ 0) (funext fun d => pay9_apply _)

theorem reset_O (r : Fin 2048) (e : Fin 1024) : k1_pay6 (F := Ideal) (ix2 r e) = 0 := pay6_apply _

end Cert.KernelIdeal.Val

end
-- ==== Proof.KI.R1Value.lean ====
import proofs.«413035_j60224031424684_3_alg».proof.Proof.Spec
import proofs.«413035_j60224031424684_3_alg».proof.Proof.Spec.Online
import proofs.«413035_j60224031424684_3_alg».proof.Proof.Spec.Tiled
import proofs.«413035_j60224031424684_3_alg».proof.Proof.LibReal
import proofs.«413035_j60224031424684_3_alg».proof.Proof.KI.R1StepDefs
import proofs.«413035_j60224031424684_3_alg».proof.Proof.KI.R1Blocks
import proofs.«413035_j60224031424684_3_alg».proof.Proof.KI.Region1
import proofs.«413035_j60224031424684_3_alg».proof.Proof.KI.R1Pieces
import proofs.«413035_j60224031424684_3_alg».proof.Proof.KI.R1Step
import Idealize.ShloMosaic.Lib.Pipeline.Value
import Idealize.ShloMosaic.Lib.ValueIdx

set_option maxRecDepth 16384

open scoped BigOperators

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.ShloMosaic.Pipeline (Dat Cfg Window)
open Cert.Spec Cert.LibReal

def btN (n : ℕ) : Fin 4 := ⟨n / 32 % 4, Nat.mod_lt _ (by decide)⟩
def gN (n : ℕ) : Fin 8 := ⟨n / 4 % 8, Nat.mod_lt _ (by decide)⟩
def hdN (n : ℕ) (j : Fin 2) : Fin 16 := ⟨2 * (n / 4 % 8) + j.val, by omega⟩

theorem hdN_zero (n : ℕ) : hdN n 0 = ⟨2 * (gN n).val, by omega⟩ := rfl
theorem hdN_one (n : ℕ) : hdN n 1 = ⟨2 * (gN n).val + 1, by omega⟩ := rfl

theorem contrib_of_states (Q : QKV) (wo : Fin 1024 → Fin 1024 → EReal) (b : Fin 4) (g : Fin 8)
    (r : Fin 2048) (e : Fin 1024) (s0 s1 : OState)
    (h0 : s0 = onl (sT Q b ⟨2 * g.val, by omega⟩ r) (vT Q b ⟨2 * g.val, by omega⟩) 4)
    (h1 : s1 = onl (sT Q b ⟨2 * g.val + 1, by omega⟩ r) (vT Q b ⟨2 * g.val + 1, by omega⟩) 4) :
    (∑ d : Fin 64, Ideal.div (s0.a d) s0.l * wo e ⟨g.val * 128 + d.val, by omega⟩)
        + ∑ d : Fin 64, Ideal.div (s1.a d) s1.l * wo e ⟨g.val * 128 + (64 + d.val), by omega⟩
      = contrib Q wo b g r e := by
  subst h0 h1
  rfl

theorem tiles_inv (Q : QKV) (wo : Fin 1024 → Fin 1024 → EReal) (N : ℕ) (hN : N = 128)
    (st : (n : ℕ) → n < N → Fin 2 → Fin 2048 → OState) (O : (n : ℕ) → n < N → Fin 2048 → Fin 1024 → EReal)
    (h0 : ∀ n (hn : n < N), n % 4 = 0 → ∀ j r,
      st n hn j r = OState.init.step (sT Q (btN n) (hdN n j) r 0) (vT Q (btN n) (hdN n j) 0))
    (h1 : ∀ n (hn : n + 1 < N) (hp : n < N), (n + 1) % 4 ≠ 0 → ∀ j r,
      st (n + 1) hn j r = (st n hp j r).step (sT Q (btN (n + 1)) (hdN (n + 1) j) r ((n + 1) % 4))
        (vT Q (btN (n + 1)) (hdN (n + 1) j) ((n + 1) % 4)))
    (hO0 : ∀ n (hn : n < N), n % 32 = 0 → ∀ r e, O n hn r e = 0)
    (hOk : ∀ n (hn : n + 1 < N) (hp : n < N), (n + 1) % 32 ≠ 0 → (n + 1) % 4 ≠ 3 →
      ∀ r e, O (n + 1) hn r e = O n hp r e)
    (hO3 : ∀ n (hn : n + 1 < N) (hp : n < N), (n + 1) % 4 = 3 → ∀ r e, O (n + 1) hn r e = O n hp r e
      + ((∑ d : Fin 64, Ideal.div ((st (n + 1) hn 0 r).a d) ((st (n + 1) hn 0 r).l)
            * wo e ⟨(gN (n + 1)).val * 128 + d.val, by omega⟩)
        + ∑ d : Fin 64, Ideal.div ((st (n + 1) hn 1 r).a d) ((st (n + 1) hn 1 r).l)
            * wo e ⟨(gN (n + 1)).val * 128 + (64 + d.val), by omega⟩)) :
    ∀ n (hn : n < N),
      (∀ j r, st n hn j r = onl (sT Q (btN n) (hdN n j) r) (vT Q (btN n) (hdN n j)) (n % 4 + 1))
      ∧ ∀ r e, O n hn r e = oacc Q wo (btN n) r e ((gN n).val + if n % 4 = 3 then 1 else 0) := by
  intro n
  induction n with
  | zero =>
    intro hn
    refine ⟨fun j r => ?_, fun r e => ?_⟩
    · rw [h0 0 hn rfl]; rfl
    · rw [hO0 0 hn rfl]; rfl
  | succ m ih =>
    intro hn
    have hp : m < N := by omega
    obtain ⟨ihS, ihO⟩ := ih hp
    have hS : ∀ j r, st (m + 1) hn j r
        = onl (sT Q (btN (m + 1)) (hdN (m + 1) j) r) (vT Q (btN (m + 1)) (hdN (m + 1) j)) ((m + 1) % 4 + 1) := by
      intro j r
      by_cases h4 : (m + 1) % 4 = 0
      · rw [h0 (m + 1) hn h4, h4]; rfl
      · rw [h1 m hn hp h4, ihS j r]
        have hb : btN m = btN (m + 1) := Fin.ext (by
          show m / 32 % 4 = (m + 1) / 32 % 4
          omega)
        have hh : hdN m j = hdN (m + 1) j := Fin.ext (by
          show 2 * (m / 4 % 8) + j.val = 2 * ((m + 1) / 4 % 8) + j.val
          omega)
        have hk : m % 4 + 1 = (m + 1) % 4 := by omega
        rw [hb, hh, hk]
        rfl
    refine ⟨hS, fun r e => ?_⟩
    by_cases h32 : (m + 1) % 32 = 0
    · rw [hO0 (m + 1) hn h32]
      have hg : (gN (m + 1)).val = 0 := by
        show (m + 1) / 4 % 8 = 0
        omega
      have h3 : ¬ (m + 1) % 4 = 3 := by omega
      rw [hg, if_neg h3]; rfl
    · by_cases h3 : (m + 1) % 4 = 3
      · have hb : btN m = btN (m + 1) := Fin.ext (by
          show m / 32 % 4 = (m + 1) / 32 % 4
          omega)
        have hg : (gN m).val = (gN (m + 1)).val := by
          show m / 4 % 8 = (m + 1) / 4 % 8
          omega
        have h3' : ¬ m % 4 = 3 := by omega
        have hk : (m + 1) % 4 + 1 = 4 := by omega
        have e0 : st (m + 1) hn 0 r = onl (sT Q (btN (m + 1)) ⟨2 * (gN (m + 1)).val, by omega⟩ r)
            (vT Q (btN (m + 1)) ⟨2 * (gN (m + 1)).val, by omega⟩) 4 := by
          rw [hS 0 r, hk, hdN_zero]
        have e1 : st (m + 1) hn 1 r = onl (sT Q (btN (m + 1)) ⟨2 * (gN (m + 1)).val + 1, by omega⟩ r)
            (vT Q (btN (m + 1)) ⟨2 * (gN (m + 1)).val + 1, by omega⟩) 4 := by
          rw [hS 1 r, hk, hdN_one]
        rw [hO3 m hn hp h3, ihO r e, if_pos h3, hb, hg, if_neg h3',
          contrib_of_states Q wo (btN (m + 1)) (gN (m + 1)) r e _ _ e0 e1]
        show _ = oacc Q wo (btN (m + 1)) r e (gN (m + 1)).val
          + (if hg : (gN (m + 1)).val < 8 then contrib Q wo (btN (m + 1)) ⟨(gN (m + 1)).val, hg⟩ r e else 0)
        rw [dif_pos (gN (m + 1)).isLt]
        rfl
      · rw [hOk m hn hp h32 h3, ihO r e, if_neg h3]
        have hb : btN m = btN (m + 1) := Fin.ext (by
          show m / 32 % 4 = (m + 1) / 32 % 4
          omega)
        have hc : (gN m).val + (if m % 4 = 3 then 1 else 0) = (gN (m + 1)).val + 0 := by
          show m / 4 % 8 + (if m % 4 = 3 then 1 else 0) = (m + 1) / 4 % 8 + 0
          split_ifs <;> omega
        rw [hb, hc]

theorem btN_of_lt (n : ℕ) (h : n / 32 < 4) : btN n = ⟨n / 32, h⟩ := Fin.ext (Nat.mod_eq_of_lt h)

theorem batchOf_mk (b : ℕ) (hb : b < 4) (r : Fin 2048) (h : b * 2048 + r.val < 8192) :
    batchOf ⟨b * 2048 + r.val, h⟩ = ⟨b, hb⟩ := by
  apply Fin.ext
  show (b * 2048 + r.val) / 2048 = b
  omega

theorem posOf_mk (b : ℕ) (r : Fin 2048) (h : b * 2048 + r.val < 8192) :
    posOf ⟨b * 2048 + r.val, h⟩ = r := by
  apply Fin.ext
  show (b * 2048 + r.val) % 2048 = r.val
  omega

theorem attnOut2_at (Q2 : (⟨2, ![8192, 3072]⟩ : Shape).Idx → EReal) (wo2 : (⟨2, ![1024, 1024]⟩ : Shape).Idx → EReal)
    (bo2 : (⟨2, ![1, 1024]⟩ : Shape).Idx → EReal) (hQ : ∀ i, IsReal (Q2 i))
    (b : ℕ) (hb : b < 4) (r : Fin 2048) (e : Fin 1024) (h : b * 2048 + r.val < 8192) :
    attnOut2 Q2 wo2 bo2 (ix2 ⟨b * 2048 + r.val, h⟩ e)
      = oacc (qkvOf Q2) (mO wo2) ⟨b, hb⟩ r e 8 + bo2 (ix2 0 e) := by
  show attnOut (qkvOf Q2) (mO wo2) (fun e => bo2 (ix2 0 e)) (batchOf ⟨b * 2048 + r.val, h⟩)
    (posOf ⟨b * 2048 + r.val, h⟩) e = _
  rw [batchOf_mk b hb r h, posOf_mk b r h,
    attnOut_eq_oacc (Q := qkvOf Q2) (fun b n e => hQ (ix2 (row b n) e))]

section Value
variable (V : (c : Dev nD) → (b : Ref sig .tc) → Buf (Elt Ideal) ((c : Thread nD τ).loc b)) (c : Dev nD)

theorem stOf_new (t : Fin cfg1.N) (M L : Vec Ideal S2x2048x1 .f32) (A : Vec Ideal S2x2048x64 .f32)
    (j : Fin 2) (r : Fin 2048) :
    stOf (newM (qBlk V c t) (kBlk V c t) M) (newL (qBlk V c t) (kBlk V c t) M L)
        (newA (qBlk V c t) (kBlk V c t) (vBlk V c t) M A) j r
      = ptStep V c t M L A j r := by
  show OState.mk (newM (qBlk V c t) (kBlk V c t) M (ix3 j r 0)) (newL (qBlk V c t) (kBlk V c t) M L (ix3 j r 0))
      (fun d => newA (qBlk V c t) (kBlk V c t) (vBlk V c t) M A (ix3 j r d)) = _
  rw [newM_at V c t M L A j r, newL_at V c t M L A j r,
    show (fun d => newA (qBlk V c t) (kBlk V c t) (vBlk V c t) M A (ix3 j r d)) = (ptStep V c t M L A j r).a from
      funext (newA_at V c t M L A j r)]

theorem btN_pt (t : Fin cfg1.N) : btN t.val = ptBatch t := Fin.ext (Nat.mod_eq_of_lt (ptBatch t).isLt)
theorem btN_eq (n : ℕ) (hn : n < cfg1.N) : btN n = ptBatch ⟨n, hn⟩ := btN_pt ⟨n, hn⟩

def stAt (n : ℕ) (hn : n < cfg1.N) (j : Fin 2) (r : Fin 2048) : OState :=
  stOf (outsAt1 V c n hn).2.1 (outsAt1 V c n hn).2.2.1 (outsAt1 V c n hn).2.2.2.1 j r
def accAt (n : ℕ) (hn : n < cfg1.N) (r : Fin 2048) (e : Fin 1024) : EReal :=
  (outsAt1 V c n hn).2.2.2.2 (ix2 r e)

theorem stAt_first (n : ℕ) (hn : n < cfg1.N) (h4 : n % 4 = 0) (j : Fin 2) (r : Fin 2048) :
    stAt V c n hn j r = OState.init.step (sT (ptQ V c) (btN n) (hdN n j) r 0) (vT (ptQ V c) (btN n) (hdN n j) 0) := by
  have hnew : stAt V c n hn j r = ptStep V c ⟨n, hn⟩ (k1_pay7 (F := Ideal)) (k1_pay8 (F := Ideal)) (k1_pay9 (F := Ideal)) j r := by
    unfold stAt
    by_cases h32 : n % 32 = 0
    · have hE : (outsAt1 V c n hn).2 = _ := outsAt1_step_A V c ⟨n, hn⟩ h32
      rw [hE]
      exact stOf_new V c ⟨n, hn⟩ _ _ _ j r
    · have hE : (outsAt1 V c n hn).2 = _ := outsAt1_step_D V c ⟨n, hn⟩ h32 h4
      rw [hE]
      exact stOf_new V c ⟨n, hn⟩ _ _ _ j r
  rw [hnew]
  show (stOf (k1_pay7 (F := Ideal)) (k1_pay8 (F := Ideal)) (k1_pay9 (F := Ideal)) j r).step (sT (ptQ V c) (ptBatch ⟨n, hn⟩) (hdN n j) r (n % 4))
    (vT (ptQ V c) (ptBatch ⟨n, hn⟩) (hdN n j) (n % 4)) = _
  rw [reset_state, h4, btN_eq n hn]

theorem stAt_next (n : ℕ) (hn : n + 1 < cfg1.N) (hp : n < cfg1.N) (h4 : (n + 1) % 4 ≠ 0) (j : Fin 2) (r : Fin 2048) :
    stAt V c (n + 1) hn j r = (stAt V c n hp j r).step (sT (ptQ V c) (btN (n + 1)) (hdN (n + 1) j) r ((n + 1) % 4))
      (vT (ptQ V c) (btN (n + 1)) (hdN (n + 1) j) ((n + 1) % 4)) := by
  have hnew : stAt V c (n + 1) hn j r = ptStep V c ⟨n + 1, hn⟩ (outsAt1 V c n hp).2.1 (outsAt1 V c n hp).2.2.1
      (outsAt1 V c n hp).2.2.2.1 j r := by
    unfold stAt
    by_cases h3 : (n + 1) % 4 = 3
    · by_cases h31 : (n + 1) % 32 = 31
      · have hE : outsAt1 V c (n + 1) hn = _ := outsAt1_step_E V c ⟨n + 1, hn⟩ h31
        rw [hE]
        exact stOf_new V c ⟨n + 1, hn⟩ _ _ _ j r
      · have hE : (outsAt1 V c (n + 1) hn).2 = _ := outsAt1_step_C V c ⟨n + 1, hn⟩ h31 h3
        rw [hE]
        exact stOf_new V c ⟨n + 1, hn⟩ _ _ _ j r
    · have hE : (outsAt1 V c (n + 1) hn).2 = _ := outsAt1_step_B V c ⟨n + 1, hn⟩ h4 h3
      rw [hE]
      exact stOf_new V c ⟨n + 1, hn⟩ _ _ _ j r
  rw [hnew, btN_eq (n + 1) hn]
  rfl

end Value

section Value2
variable (V : (c : Dev nD) → (b : Ref sig .tc) → Buf (Elt Ideal) ((c : Thread nD τ).loc b)) (c : Dev nD)

theorem accAt_zero (n : ℕ) (hn : n < cfg1.N) (h32 : n % 32 = 0) (r : Fin 2048) (e : Fin 1024) :
    accAt V c n hn r e = 0 := by
  unfold accAt
  have hE : (outsAt1 V c n hn).2 = _ := outsAt1_step_A V c ⟨n, hn⟩ h32
  rw [hE]
  exact reset_O r e

theorem accAt_keep (n : ℕ) (hn : n + 1 < cfg1.N) (hp : n < cfg1.N) (h32 : (n + 1) % 32 ≠ 0) (h3 : (n + 1) % 4 ≠ 3)
    (r : Fin 2048) (e : Fin 1024) : accAt V c (n + 1) hn r e = accAt V c n hp r e := by
  unfold accAt
  by_cases h4 : (n + 1) % 4 = 0
  · have hE : (outsAt1 V c (n + 1) hn).2 = _ := outsAt1_step_D V c ⟨n + 1, hn⟩ h32 h4
    rw [hE]
    rfl
  · have hE : (outsAt1 V c (n + 1) hn).2 = _ := outsAt1_step_B V c ⟨n + 1, hn⟩ h4 h3
    rw [hE]
    rfl

theorem accAt_add (n : ℕ) (hn : n + 1 < cfg1.N) (hp : n < cfg1.N) (h3 : (n + 1) % 4 = 3) (r : Fin 2048) (e : Fin 1024) :
    accAt V c (n + 1) hn r e = accAt V c n hp r e
      + ((∑ d : Fin 64, Ideal.div ((stAt V c (n + 1) hn 0 r).a d) ((stAt V c (n + 1) hn 0 r).l)
            * ptWo V c e ⟨(gN (n + 1)).val * 128 + d.val, by omega⟩)
        + ∑ d : Fin 64, Ideal.div ((stAt V c (n + 1) hn 1 r).a d) ((stAt V c (n + 1) hn 1 r).l)
            * ptWo V c e ⟨(gN (n + 1)).val * 128 + (64 + d.val), by omega⟩) := by
  unfold accAt stAt
  by_cases h31 : (n + 1) % 32 = 31
  · have hE : outsAt1 V c (n + 1) hn = _ := outsAt1_step_E V c ⟨n + 1, hn⟩ h31
    rw [hE]
    exact newO_at V c ⟨n + 1, hn⟩ _ _ _ r e
  · have hE : (outsAt1 V c (n + 1) hn).2 = _ := outsAt1_step_C V c ⟨n + 1, hn⟩ h31 h3
    rw [hE]
    exact newO_at V c ⟨n + 1, hn⟩ _ _ _ r e

theorem inv1N (n : ℕ) (hn : n < cfg1.N) :
    (∀ j r, stAt V c n hn j r
        = onl (sT (ptQ V c) (btN n) (hdN n j) r) (vT (ptQ V c) (btN n) (hdN n j)) (n % 4 + 1))
      ∧ ∀ r e, accAt V c n hn r e
        = oacc (ptQ V c) (ptWo V c) (btN n) r e ((gN n).val + if n % 4 = 3 then 1 else 0) :=
  tiles_inv (ptQ V c) (ptWo V c) cfg1.N N_1 (stAt V c) (accAt V c) (stAt_first V c) (stAt_next V c)
    (accAt_zero V c) (accAt_keep V c) (accAt_add V c) n hn

end Value2

section Final
variable (V : (c : Dev nD) → (b : Ref sig .tc) → Buf (Elt Ideal) ((c : Thread nD τ).loc b)) (c : Dev nD)

theorem out_last (t : Fin cfg1.N) (h31 : t.val % 32 = 31) (r : Fin 2048) (e : Fin 1024) :
    (outsAt1 V c t.val t.isLt).1 (ix2 r e)
      = oacc (qkvOf (V c main_v4)) (mO (V c main_v2)) (btN t.val) r e 8 + V c main_v3 (ix2 0 e) := by
  have hE := outsAt1_step_E V c t h31
  have hS1 : (outsAt1 V c t.val t.isLt).1 = k1_pay5 (outsAt1 V c t.val t.isLt).2.2.2.2 (boBlk V c t) := by
    rw [hE]
  have hacc := (inv1N V c t.val t.isLt).2 r e
  unfold accAt at hacc
  have h8 : (gN t.val).val + (if t.val % 4 = 3 then 1 else 0) = 8 := by
    show t.val / 4 % 8 + (if t.val % 4 = 3 then 1 else 0) = 8
    rw [if_pos (by omega)]
    omega
  rw [hS1, out_at V c t _ r e, hacc, h8]

theorem flushed1_5 (hQ : ∀ i, IsReal (V c main_v4 i)) (t : Fin cfg1.N) (hf : (cfg1.win 5).flush t = true) :
    (dat1 (F := Ideal) V c).flushed 5 t
      = ((cfg1.win 5).blk t).view.read (Elt Ideal) (attnOut2 (V c main_v4) (V c main_v2) (V c main_v3)) := by
  have h31 : t.val % 32 = 31 := (flush1_5 t).mp hf
  have hN : cfg1.N = 128 := N_1
  have ht := t.isLt
  show (cfg1.win 5).cut (grid1.coords t) ((dat1 (F := Ideal) V c).after 5 t) = _
  rw [after1_5]
  funext j
  obtain ⟨r, e, rfl⟩ : ∃ (r : Fin 2048) (e : Fin 1024), j = ix2 r e := ⟨j 0, j 1, eq_ix2 j⟩
  rw [blk1_5_read, attnOut2_at _ _ _ hQ (t.val / 32) (by omega) r e]
  show (outsAt1 V c t.val t.isLt).1 (ix2 r e) = _
  rw [out_last V c t h31 r e, btN_of_lt t.val (by omega)]

theorem region1_value (V : (c : Dev nD) → (b : Ref sig .tc) → Buf (Elt Ideal) ((c : Thread nD τ).loc b)) (c : Dev nD)
    (hQ : ∀ i, IsReal (V c main_v4 i)) :
    (dat1 (F := Ideal) V c).arrAt 5 cfg1.N = Cert.Spec.attnOut2 (V c main_v4) (V c main_v2) (V c main_v3) :=
  (dat1 (F := Ideal) V c).arrAt_eq_of_cover 5 (Cert.Spec.attnOut2 (V c main_v4) (V c main_v2) (V c main_v3))
    (fun t hf => flushed1_5 V c hQ t hf) blk1_5_cover

end Final

end Cert.KernelIdeal.Val
end
-- ==== Proof.Finite.lean ====
import proofs.«413035_j60224031424684_3_alg».proof.Defs
import proofs.«413035_j60224031424684_3_alg».proof.Proof.Gen.Pre_finite_inputs
import proofs.«413035_j60224031424684_3_alg».proof.Proof.LibReal
import Idealize.ShloMosaic.Lib.ReduceAll
import Idealize.ShloMosaic.Lib.ValueIdx

noncomputable section

namespace Cert.Finite

open Idealize.ShloMosaic Idealize.SL.Sem Cert.LibReal

instance : Subsingleton Cert.Pre_finite_inputs.S_.Idx := ⟨fun a b => funext fun d => d.elim0⟩

theorem ofBits_inf : Ideal.ofBits .f32 0x7F800000#32 = (⊤ : EReal) := by
  simp [Ideal.ofBits, Ideal.ieee]

theorem isReal_of_abs_lt (x : EReal) (h : Ideal.cmp .olt (max x (-x)) (⊤ : EReal) = 1#1) : IsReal x := by
  induction x using EReal.rec with
  | bot => simp [Ideal.cmp] at h
  | coe r => exact ⟨r, rfl⟩
  | top => simp [Ideal.cmp] at h

theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ValueIdx.ix0 = 1#1) :
    ∀ i, IsReal (a i) := by
  intro i
  have hi := Host.reduce_andi_all _ _ hr hu _ e i
  refine isReal_of_abs_lt (a i) ?_
  rw [← ofBits_inf]
  exact hi

theorem real_of_fn [Cert.Pre_finite_inputs.Facts]
    (a0 : FVec Ideal Cert.Pre_finite_inputs.S4x2048x1024 .f32) (a1 : FVec Ideal Cert.Pre_finite_inputs.S3072x1024 .f32)
    (a2 : FVec Ideal Cert.Pre_finite_inputs.S1024x1024 .f32) (a3 : FVec Ideal Cert.Pre_finite_inputs.S1024 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ h0', all_real a1 _ _ _ h1, all_real a2 _ _ _ h2, all_real a3 _ _ _ h3⟩

theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i)) :=
  real_of_fn _ _ _ _ (h c)

end Cert.Finite

end
-- ==== Proof.KI.Final.lean ====
import proofs.«413035_j60224031424684_3_alg».proof.Proof.KI.HostSide
import proofs.«413035_j60224031424684_3_alg».proof.Proof.KI.R0Value
import proofs.«413035_j60224031424684_3_alg».proof.Proof.KI.Run
import proofs.«413035_j60224031424684_3_alg».proof.Proof.KI.R1Value
import proofs.«413035_j60224031424684_3_alg».proof.Proof.Finite
import proofs.«413035_j60224031424684_3_alg».proof.Proof.Spec
import proofs.«413035_j60224031424684_3_alg».proof.Proof.LibReal

set_option maxRecDepth 16384

open scoped BigOperators

noncomputable section

namespace Cert.KernelIdeal.Val

open Cert.KernelIdeal Cert.KernelIdeal.Gen Cert.KernelIdeal.Hand
open Idealize.ShloMosaic Idealize.ShloMosaic.TcCoe Idealize.ShloMosaic.ValueIdx
open Cert.Spec Cert.LibReal Idealize.ShloMosaic.StableHlo

theorem batchOf_row (b : Fin 4) (n : Fin 2048) : batchOf (row b n) = b :=
  Fin.ext (by show (b.val * 2048 + n.val) / 2048 = b.val; have := n.isLt; omega)

theorem posOf_row (b : Fin 4) (n : Fin 2048) : posOf (row b n) = n :=
  Fin.ext (by show (b.val * 2048 + n.val) % 2048 = n.val; have := n.isLt; omega)

theorem qkvOf_proj2 (A : (⟨2, ![8192, 1024]⟩ : Shape).Idx → EReal) (B : (⟨2, ![3072, 1024]⟩ : Shape).Idx → EReal)
    (X : (⟨3, ![4, 2048, 1024]⟩ : Shape).Idx → EReal) (Wt : (⟨2, ![3072, 1024]⟩ : Shape).Idx → EReal)
    (hA : ∀ (r : Fin 8192) (d : Fin 1024), A (ix2 r d) = X (ix3 (batchOf r) (posOf r) d))
    (hB : ∀ (e : Fin 3072) (d : Fin 1024), B (ix2 e d) = Wt (ix2 e d)) :
    qkvOf (proj2 A B) = proj (x3 X) (mW Wt) := by
  funext b n e
  show ∑ d : Fin 1024, A (ix2 (row b n) d) * B (ix2 e d) = ∑ d : Fin 1024, X (ix3 b n d) * Wt (ix2 e d)
  refine Finset.sum_congr rfl fun d _ => ?_
  rw [hA, hB, batchOf_row, posOf_row]

section Host
variable (W : Valuation τ sig (Elt Ideal))

theorem qkvOf_host :
    qkvOf (proj2 (StableHlo.after (hostOps0 (F := Ideal)) W (Proc.devRef .tc main_v0)) (StableHlo.after (hostOps0 (F := Ideal)) W (Proc.devRef .tc main_v1)))
      = proj (x3 (W (Proc.devRef .tc main_arg0))) (mW (W (Proc.devRef .tc main_arg1))) :=
  qkvOf_proj2 _ _ _ _ (host0_v0 W) (host0_v1 W)

theorem mO_host : mO (StableHlo.after (hostOps0 (F := Ideal)) W (Proc.devRef .tc main_v2)) = mO (W (Proc.devRef .tc main_arg2)) := by
  funext e c
  exact host0_v2 W e c

theorem bias_host : (fun e : Fin 1024 => StableHlo.after (hostOps0 (F := Ideal)) W (Proc.devRef .tc main_v3) (ix2 (0 : Fin 1) e)) = v1 (W (Proc.devRef .tc main_arg3)) := by
  funext e
  exact host0_v3 W e

end Host

theorem proj2_real {A : (⟨2, ![8192, 1024]⟩ : Shape).Idx → EReal} {B : (⟨2, ![3072, 1024]⟩ : Shape).Idx → EReal}
    (hA : ∀ i, IsReal (A i)) (hB : ∀ i, IsReal (B i)) (i : (⟨2, ![8192, 3072]⟩ : Shape).Idx) : IsReal (proj2 A B i) :=
  IsReal.sum _ _ fun d _ => IsReal.mul (hA _) (hB _)

section Host
variable (W : Valuation τ sig (Elt Ideal))

theorem host0_v0_real (h : ∀ i, IsReal (W (Proc.devRef .tc main_arg0) i)) (i : S8192x1024.Idx) :
    IsReal (StableHlo.after (hostOps0 (F := Ideal)) W (Proc.devRef .tc main_v0) i) := by
  obtain ⟨r, d, rfl⟩ : ∃ r d, i = ix2 r d := ⟨_, _, eq_ix2 i⟩
  exact (host0_v0 W r d).symm ▸ h _

theorem host0_v1_real (h : ∀ i, IsReal (W (Proc.devRef .tc main_arg1) i)) (i : S3072x1024.Idx) :
    IsReal (StableHlo.after (hostOps0 (F := Ideal)) W (Proc.devRef .tc main_v1) i) := by
  obtain ⟨e, d, rfl⟩ : ∃ e d, i = ix2 e d := ⟨_, _, eq_ix2 i⟩
  exact (host0_v1 W e d).symm ▸ h _

end Host

theorem G_ix3 (x : (⟨3, ![4, 2048, 1024]⟩ : Shape).Idx → EReal) (w : (⟨2, ![3072, 1024]⟩ : Shape).Idx → EReal)
    (wo : (⟨2, ![1024, 1024]⟩ : Shape).Idx → EReal) (bo : (⟨1, ![1024]⟩ : Shape).Idx → EReal) (b : Fin 4) (n : Fin 2048) (e : Fin 1024) :
    G x w wo bo (ix3 b n e) = attnOut (proj (x3 x) (mW w)) (mO wo) (v1 bo) b n e := rfl

theorem attnOut2_row (Q2 : (⟨2, ![8192, 3072]⟩ : Shape).Idx → EReal) (wo : (⟨2, ![1024, 1024]⟩ : Shape).Idx → EReal)
    (bo : (⟨2, ![1, 1024]⟩ : Shape).Idx → EReal) (b : Fin 4) (n : Fin 2048) (e : Fin 1024) :
    attnOut2 Q2 wo bo (ix2 (row b n) e) = attnOut (qkvOf Q2) (mO wo) (fun e => bo (ix2 0 e)) b n e := by
  show attnOut (qkvOf Q2) (mO wo) (fun e => bo (ix2 0 e)) (batchOf (row b n)) (posOf (row b n)) e = _
  rw [batchOf_row, posOf_row]

theorem value_of_boundaries (W0 W3 : Valuation τ sig (Elt Ideal))
    (Q2 : (⟨2, ![8192, 3072]⟩ : Shape).Idx → EReal) (wo2 : (⟨2, ![1024, 1024]⟩ : Shape).Idx → EReal) (bo2 : (⟨2, ![1, 1024]⟩ : Shape).Idx → EReal)
    (hQ2 : Q2 = proj2 (StableHlo.after (hostOps0 (F := Ideal)) W0 (Proc.devRef .tc main_v0)) (StableHlo.after (hostOps0 (F := Ideal)) W0 (Proc.devRef .tc main_v1)))
    (hwo : wo2 = StableHlo.after (hostOps0 (F := Ideal)) W0 (Proc.devRef .tc main_v2))
    (hbo : bo2 = StableHlo.after (hostOps0 (F := Ideal)) W0 (Proc.devRef .tc main_v3))
    (hout : (∀ i, IsReal (Q2 i)) → W3 (Proc.devRef .tc main_v5) = attnOut2 Q2 wo2 bo2)
    (hr0 : ∀ i, IsReal (W0 (Proc.devRef .tc main_arg0) i)) (hr1 : ∀ i, IsReal (W0 (Proc.devRef .tc main_arg1) i)) :
    StableHlo.after (hostOps2 (F := Ideal)) W3 (Proc.devRef .tc main_v6)
      = G (W0 (Proc.devRef .tc main_arg0)) (W0 (Proc.devRef .tc main_arg1)) (W0 (Proc.devRef .tc main_arg2)) (W0 (Proc.devRef .tc main_arg3)) := by
  have hreal : ∀ i, IsReal (Q2 i) := fun i => hQ2 ▸ proj2_real (host0_v0_real W0 hr0) (host0_v1_real W0 hr1) i
  have h5 := hout hreal
  funext i
  obtain ⟨b, n, e, rfl⟩ : ∃ b n e, i = ix3 b n e := ⟨_, _, _, eq_ix3 i⟩
  refine (host2_v6 W3 b n e).trans ?_
  refine (congrFun h5 (ix2 (row b n) e)).trans ?_
  refine (attnOut2_row Q2 wo2 bo2 b n e).trans ?_
  refine Eq.trans ?_ (G_ix3 _ _ _ _ b n e).symm
  have e1 : qkvOf Q2 = proj (x3 (W0 (Proc.devRef .tc main_arg0))) (mW (W0 (Proc.devRef .tc main_arg1))) := hQ2 ▸ qkvOf_host W0
  have e2 : mO wo2 = mO (W0 (Proc.devRef .tc main_arg2)) := hwo ▸ mO_host W0
  have e3 : (fun e : Fin 1024 => bo2 (ix2 (0 : Fin 1) e)) = v1 (W0 (Proc.devRef .tc main_arg3)) := hbo ▸ bias_host W0
  rw [e1, e2, e3]

section Program
open Idealize.SL.Sem
variable [Cert.Pre_finite_inputs.Facts] (m : (ℓ : Loc nD τ sig) → Buf (Elt Ideal) ℓ) (ρ : Dev nD → PrngReg)

theorem value_at (hpre : Cert.Pre_KernelIdeal m) (c : Dev nD)
    (h1 : (∀ i, IsReal (V2 m ρ c main_v4 i)) →
      (dat1 (V2 m ρ) c).arrAt 5 cfg1.N = attnOut2 (V2 m ρ c main_v4) (V2 m ρ c main_v2) (V2 m ρ c main_v3)) :
    W4 m ρ c (Proc.devRef .tc main_v6)
      = G (m ((c.tc : Thread nD τ).loc main_arg0)) (m ((c.tc : Thread nD τ).loc main_arg1)) (m ((c.tc : Thread nD τ).loc main_arg2)) (m ((c.tc : Thread nD τ).loc main_arg3)) :=
  value_of_boundaries (W0 m ρ c) (W3 m ρ c) (V2 m ρ c main_v4) (V2 m ρ c main_v2) (V2 m ρ c main_v3)
    ((W2_main_v4 m ρ c).trans (region0_value (V1 m ρ) c))
    (V2_main_v2 m ρ c) (V2_main_v3 m ρ c)
    (fun hQ => (V3_main_v5 m ρ c).trans (h1 hQ))
    (Cert.Finite.real_of_pre m hpre c).1 (Cert.Finite.real_of_pre m hpre c).2.1

theorem kernel_value_of (hpre : Cert.Pre_KernelIdeal m)
    (h1 : ∀ c : Dev nD, (∀ i, IsReal (V2 m ρ c main_v4 i)) →
      (dat1 (V2 m ρ) c).arrAt 5 cfg1.N = attnOut2 (V2 m ρ c main_v4) (V2 m ρ c main_v2) (V2 m ρ c main_v3)) :
    θ_run (defs (F := Ideal)) (onTc (τ := τ) (main (F := Ideal))) ⟨m, fun _ => 0, ρ⟩ (fun r => ∀ c : Dev nD,
      r.2.mem ((c.tc : Thread nD τ).loc main_v6) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v6 (by decide))).trans (value_at m ρ hpre c (h1 c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩)
    (run_all m ρ)

theorem kernel_value (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v6) = Cert.Spec.G (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  kernel_value_of m ρ hpre fun c hQ => region1_value (V2 m ρ) c hQ
end Program

end Cert.KernelIdeal.Val

end
-- ==== Proof.lean ====
import proofs.«413035_j60224031424684_3_alg».proof.Defs
import proofs.«413035_j60224031424684_3_alg».proof.Proof.Gen.Kernel
import proofs.«413035_j60224031424684_3_alg».proof.Proof.Gen.KernelIdeal
import proofs.«413035_j60224031424684_3_alg».proof.Proof.Gen.ReferenceIdeal
import proofs.«413035_j60224031424684_3_alg».proof.Proof.Gen.ReferenceIdeal.Run
import proofs.«413035_j60224031424684_3_alg».proof.Proof.Gen.ReferenceIdeal.Read
import proofs.«413035_j60224031424684_3_alg».proof.Proof.Gen.Pre_finite_inputs
import proofs.«413035_j60224031424684_3_alg».proof.Proof.Ref.RefValue
import proofs.«413035_j60224031424684_3_alg».proof.Proof.SameText
import proofs.«413035_j60224031424684_3_alg».proof.Proof.KI.Run
import proofs.«413035_j60224031424684_3_alg».proof.Proof.KI.Final
import Idealize.ShloMosaic.Adequacy
import Idealize.ShloMosaic.Init

noncomputable section

namespace Cert.Proof

open Idealize.ShloMosaic Idealize.ShloMosaic.TcCoe Idealize.SL.Sem

/-- The word-level program has the idealized program's text, so the one frame, stated at any float instance, serves both. -/
theorem frame_k : Cert.frame_Kernel (hKernel := Cert.Kernel.Gen.facts) (hPre_finite_inputs := Cert.Pre_finite_inputs.Gen.facts) :=
  fun m ρ _ => Cert.SameText.defs_eq (F := Bits) (hK := Cert.Kernel.Gen.facts) (hKI := Cert.KernelIdeal.Gen.facts) ▸
    Cert.KernelIdeal.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    @Cert.KernelIdeal.Val.kernel_value Cert.Pre_finite_inputs.Gen.facts m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.ref_is_G, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
